-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S16000x16000 : Shape := ⟨2, ![16000, 16000]⟩
abbrev S8000x64 : Shape := ⟨2, ![8000, 64]⟩
abbrev S64x64 : Shape := ⟨2, ![64, 64]⟩
abbrev S64 : Shape := ⟨1, ![64]⟩
abbrev S_ : Shape := ⟨0, ![]⟩

class Facts : Prop where
  bcast_S_S16000x16000 : S_.BroadcastsInDim S16000x16000 (![] : Fin 0 → Fin S16000x16000.rank)
  reducesTo_S16000x16000_S_d0_1 : S16000x16000.ReducesTo [0, 1] S_
  h_S_ : 0 < S_.numel
  bcast_S_S8000x64 : S_.BroadcastsInDim S8000x64 (![] : Fin 0 → Fin S8000x64.rank)
  reducesTo_S8000x64_S_d0_1 : S8000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : IVec S4096 32) (main_arg1 : IVec S4096 32) (main_arg2 : FVec F S16000x16000 .f32) (main_arg3 : FVec F S8000x64 .f32) (main_arg4 : FVec F S8000x64 .f32) (main_arg5 : FVec F S64x64 .f32) (main_arg6 : FVec F S64 .f32) : IVec S_ 1 :=
  let main_v0 : FVec F S16000x16000 .f32 := Host.absf main_arg2
  let main_cst : FVec F S_ .f32 := constant S_ .f32 0x7F800000#32
  let main_v1 : FVec F S16000x16000 .f32 := broadcastInDim S16000x16000 ![] bcast_S_S16000x16000 main_cst
  let main_v2 : IVec S16000x16000 1 := cmpf .olt main_v0 main_v1
  let main_c : IVec S_ 1 := constantI S_ 1 1#1
  let main_v3 : IVec S_ 1 := (fun x v => Host.reduce IntOp.andi x v reducesTo_S16000x16000_S_d0_1 h_S_) main_v2 main_c
  let main_v4 : FVec F S8000x64 .f32 := Host.absf main_arg3
  let main_cst_0 : FVec F S_ .f32 := constant S_ .f32 0x7F800000#32
  let main_v5 : FVec F S8000x64 .f32 := broadcastInDim S8000x64 ![] bcast_S_S8000x64 main_cst_0
  let main_v6 : IVec S8000x64 1 := cmpf .olt main_v4 main_v5
  let main_c_1 : IVec S_ 1 := constantI S_ 1 1#1
  let main_v7 : IVec S_ 1 := (fun x v => Host.reduce IntOp.andi x v reducesTo_S8000x64_S_d0_1 h_S_) main_v6 main_c_1
  let main_v8 : IVec S_ 1 := andi main_v3 main_v7
  let main_v9 : FVec F S8000x64 .f32 := Host.absf main_arg4
  let main_cst_2 : FVec F S_ .f32 := constant S_ .f32 0x7F800000#32
  let main_v10 : FVec F S8000x64 .f32 := broadcastInDim S8000x64 ![] bcast_S_S8000x64 main_cst_2
  let main_v11 : IVec S8000x64 1 := cmpf .olt main_v9 main_v10
  let main_c_3 : IVec S_ 1 := constantI S_ 1 1#1
  let main_v12 : IVec S_ 1 := (fun x v => Host.reduce IntOp.andi x v reducesTo_S8000x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S4096 : Shape := ⟨1, ![4096]⟩
abbrev S16000x16000 : Shape := ⟨2, ![16000, 16000]⟩
abbrev S8000x64 : Shape := ⟨2, ![8000, 64]⟩
abbrev S64x64 : Shape := ⟨2, ![64, 64]⟩
abbrev S64 : Shape := ⟨1, ![64]⟩
abbrev S16000x64 : Shape := ⟨2, ![16000, 64]⟩
abbrev S1x64 : Shape := ⟨2, ![1, 64]⟩
abbrev S800x3200 : Shape := ⟨2, ![800, 3200]⟩
abbrev S3200x64 : Shape := ⟨2, ![3200, 64]⟩
abbrev S800x64 : Shape := ⟨2, ![800, 64]⟩
abbrev S_ : Shape := ⟨0, ![]⟩
abbrev S4096x1 : Shape := ⟨2, ![4096, 1]⟩
abbrev S4096x64 : Shape := ⟨2, ![4096, 64]⟩

abbrev nBuf : Space → Nat
  | .hbm => 44
  | .vmem => 24
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S16000x16000, .f32⟩
  | .hbm, ⟨3, _⟩ => ⟨S8000x64, .f32⟩
  | .hbm, ⟨4, _⟩ => ⟨S8000x64, .f32⟩
  | .hbm, ⟨5, _⟩ => ⟨S64x64, .f32⟩
  | .hbm, ⟨6, _⟩ => ⟨S64, .f32⟩
  | .hbm, ⟨7, _⟩ => ⟨S16000x64, .f32⟩
  | .hbm, ⟨8, _⟩ => ⟨S1x64, .f32⟩
  | .hbm, ⟨9, _⟩ => ⟨S16000x64, .f32⟩
  | .hbm, ⟨10, _⟩ => ⟨S16000x64, .f32⟩
  | .hbm, ⟨11, _⟩ => ⟨S16000x64, .f32⟩
  | .hbm, ⟨12, _⟩ => ⟨S16000x64, .f32⟩
  | .hbm, ⟨13, _⟩ => ⟨S16000x64, .f32⟩
  | .hbm, ⟨14, _⟩ => ⟨S16000x64, .f32⟩
  | .hbm, ⟨15, _⟩ => ⟨S16000x64, .f32⟩
  | .hbm, ⟨16, _⟩ => ⟨S16000x64, .f32⟩
  | .hbm, ⟨17, _⟩ => ⟨S16000x64, .f32⟩
  | .hbm, ⟨18, _⟩ => ⟨S_, .f32⟩
  | .hbm, ⟨19, _⟩ => ⟨S16000x64, .f32⟩
  | .hbm, ⟨20, _⟩ => ⟨S16000x64, .f32⟩
  | .hbm, ⟨21, _⟩ => ⟨S8000x64, .f32⟩
  | .hbm, ⟨22, _⟩ => ⟨S8000x64, .f32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S4096x1, .i32⟩
  | .hbm, ⟨31, _⟩ => ⟨S4096x64, .f32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S4096x1, .i32⟩
  | .hbm, ⟨40, _⟩ => ⟨S4096x64, .f32⟩
  | .hbm, ⟨41, _⟩ => ⟨S4096x64, .f32⟩
  | .hbm, ⟨42, _⟩ => ⟨S_, .f32⟩
  | .hbm, ⟨43, _⟩ => ⟨S4096, .f32⟩
  | .local _ .vmem, ⟨0, _⟩ => ⟨S800x3200, .f32⟩
  | .local _ .vmem, ⟨1, _⟩ => ⟨S800x3200, .f32⟩
  | .local _ .vmem, ⟨2, _⟩ => ⟨S3200x64, .f32⟩
  | .local _ .vmem, ⟨3, _⟩ => ⟨S3200x64, .f32⟩
  | .local _ .vmem, ⟨4, _⟩ => ⟨S1x64, .f32⟩
  | .local _ .vmem, ⟨5, _⟩ => ⟨S800x64, .f32⟩
  | .local _ .vmem, ⟨6, _⟩ => ⟨S800x64, .f32⟩
  | .local _ .vmem, ⟨7, _⟩ => ⟨S800x64, .f32⟩
  | .local _ .vmem, ⟨8, _⟩ => ⟨S800x3200, .f32⟩
  | .local _ .vmem, ⟨9, _⟩ => ⟨S800x3200, .f32⟩
  | .local _ .vmem, ⟨10, _⟩ => ⟨S3200x64, .f32⟩
  | .local _ .vmem, ⟨11, _⟩ => ⟨S3200x64, .f32⟩
  | .local _ .vmem, ⟨12, _⟩ => ⟨S1x64, .f32⟩
  | .local _ .vmem, ⟨13, _⟩ => ⟨S800x64, .f32⟩
  | .local _ .vmem, ⟨14, _⟩ => ⟨S800x64, .f32⟩
  | .local _ .vmem, ⟨15, _⟩ => ⟨S800x64, .f32⟩
  | .local _ .vmem, ⟨16, _⟩ => ⟨S800x3200, .f32⟩
  | .local _ .vmem, ⟨17, _⟩ => ⟨S800x3200, .f32⟩
  | .local _ .vmem, ⟨18, _⟩ => ⟨S3200x64, .f32⟩
  | .local _ .vmem, ⟨19, _⟩ => ⟨S3200x64, .f32⟩
  | .local _ .vmem, ⟨20, _⟩ => ⟨S1x64, .f32⟩
  | .local _ .vmem, ⟨21, _⟩ => ⟨S800x64, .f32⟩
  | .local _ .vmem, ⟨22, _⟩ => ⟨S800x64, .f32⟩
  | .local _ .vmem, ⟨23, _⟩ => ⟨S800x64, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨2, ![20, 5], ![false, false]⟩

def k0_cond2 (i : grid0.Coords) : BitVec 1 :=
  let arg1 : BitVec 32 := BitVec.ofNat 32 (i 1).val
  let c4_i32 : BitVec 32 := 4#32
  let v14 : BitVec 1 := Scalar.cmpi .eq arg1 c4_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S800x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S800x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![20, 5], ![false, false]⟩

def k1_cond2 (i : grid1.Coords) : BitVec 1 :=
  let arg1 : BitVec 32 := BitVec.ofNat 32 (i 1).val
  let c4_i32 : BitVec 32 := 4#32
  let v14 : BitVec 1 := Scalar.cmpi .eq arg1 c4_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S800x3200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S3200x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S800x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![20, 5], ![false, false]⟩

def k2_cond2 (i : grid2.Coords) : BitVec 1 :=
  let arg1 : BitVec 32 := BitVec.ofNat 32 (i 1).val
  let c4_i32 : BitVec 32 := 4#32
  let v14 : BitVec 1 := Scalar.cmpi .eq arg1 c4_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S800x3200 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S3200x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S800x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  concatenates_S8000x64_S8000x64_S16000x64_d0 : Shape.Concatenates [S8000x64, S8000x64] S16000x64 0
  shapeCasts_S64_S1x64 : S64.ShapeCasts S1x64
  inb_S800x64_S800x64_0_0 : ∀ a, (![0, 0] : Fin 2 → Nat) a + S800x64.size a ≤ S800x64.size a
  h_S800x64 : 0 < S800x64.numel
  shapeCasts_S800x64_S800x64 : S800x64.ShapeCasts S800x64
  inb_S800x3200_S800x3200_0_0 : ∀ a, (![0, 0] : Fin 2 → Nat) a + S800x3200.size a ≤ S800x3200.size a
  h_S800x3200 : 0 < S800x3200.numel
  bitsLt_bf16_f32 : FTy.bits .bf16 < FTy.bits .f32
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S800x64 : S1x64.Broadcasts S800x64
  bcast_S_S16000x64 : S_.BroadcastsInDim S16000x64 (![] : Fin 0 → Fin S16000x64.rank)
  slices_S16000x64_S8000x64_0_0 : S16000x64.Slices ![0, 0] S8000x64
  slices_S16000x64_S8000x64_8000_0 : S16000x64.Slices ![8000, 0] S8000x64
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  dot_S16000x64_S64x64_S16000x64_1_0_0_1_n_n_wf : DotDims.WF S16000x64 S64x64 S16000x64 [1] [0] [0] [1] [] []
  dot_S800x3200_S3200x64_S800x64_1_0_0_1_n_n_wf : DotDims.WF S800x3200 S3200x64 S800x64 [1] [0] [0] [1] [] []
  gather_S8000x64_S4096x1_S4096x64_1_0_n_n_0_1_164_wf : GatherDims.WF S8000x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x3200.size a ≤ S16000x16000.size a
  hwx0_0 : ∀ i : grid0.Coords, EltTy.bits .f32 = 32 ∨ (Rect.block (s := S16000x16000) S800x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x64.size a ≤ S16000x64.size a
  hwx0_1 : ∀ i : grid0.Coords, EltTy.bits .f32 = 32 ∨ (Rect.block (s := S16000x64) S3200x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S800x64.size a ≤ S16000x64.size a
  hwx0_3 : ∀ i : grid0.Coords, EltTy.bits .f32 = 32 ∨ (Rect.block (s := S16000x64) S800x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S800x3200.size a ≤ S16000x16000.size a
  hwx1_0 : ∀ i : grid1.Coords, EltTy.bits .f32 = 32 ∨ (Rect.block (s := S16000x16000) S800x3200.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x64.size a ≤ S16000x64.size a
  hwx1_1 : ∀ i : grid1.Coords, EltTy.bits .f32 = 32 ∨ (Rect.block (s := S16000x64) S3200x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S800x64.size a ≤ S16000x64.size a
  hwx1_3 : ∀ i : grid1.Coords, EltTy.bits .f32 = 32 ∨ (Rect.block (s := S16000x64) S800x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S800x3200.size a ≤ S16000x16000.size a
  hwx2_0 : ∀ i : grid2.Coords, EltTy.bits .f32 = 32 ∨ (Rect.block (s := S16000x16000) S800x3200.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3200x64.size a ≤ S16000x64.size a
  hwx2_1 : ∀ i : grid2.Coords, EltTy.bits .f32 = 32 ∨ (Rect.block (s := S16000x64) S3200x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S800x64.size a ≤ S16000x64.size a
  hwx2_3 : ∀ i : grid2.Coords, EltTy.bits .f32 = 32 ∨ (Rect.block (s := S16000x64) S800x64.size (cc2_transform_3 i) (hinb2_3 i)).WholeWords (EltTy.packing .f32)

variable [Facts₀]

def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def dot_S800x3200_S3200x64_S800x64_1_0_0_1_n_n : DotDims S800x3200 S3200x64 S800x64 where
  lhsContracting := [1]
  rhsContracting := [0]
  lhsNonContracting := [0]
  rhsNonContracting := [1]
  lhsBatch := []
  rhsBatch := []
  wf := dot_S800x3200_S3200x64_S800x64_1_0_0_1_n_n_wf
def gather_S8000x64_S4096x1_S4096x64_1_0_n_n_0_1_164 : GatherDims S8000x64 S4096x1 S4096x64 where
  offsetDims := [1]
  collapsedSliceDims := [0]
  operandBatchingDims := []
  startIndicesBatchingDims := []
  startIndexMap := [0]
  indexVectorDim := 1
  sliceSizes := ![1, 64]
  wf := gather_S8000x64_S4096x1_S4096x64_1_0_n_n_0_1_164_wf

abbrev win0_0 : Pipeline.Window sig grid0 :=
  Pipeline.Window.ofSpec (Memref.whole main_arg2) S800x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S800x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg2) S800x3200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S3200x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S800x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg2) S800x3200.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S3200x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S800x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4096 : Shape := ⟨1, ![4096]⟩
abbrev S16000x16000 : Shape := ⟨2, ![16000, 16000]⟩
abbrev S8000x64 : Shape := ⟨2, ![8000, 64]⟩
abbrev S64x64 : Shape := ⟨2, ![64, 64]⟩
abbrev S64 : Shape := ⟨1, ![64]⟩
abbrev S16000x64 : Shape := ⟨2, ![16000, 64]⟩
abbrev S1x64 : Shape := ⟨2, ![1, 64]⟩
abbrev S_ : Shape := ⟨0, ![]⟩
abbrev S4096x1 : Shape := ⟨2, ![4096, 1]⟩
abbrev S4096x64 : Shape := ⟨2, ![4096, 64]⟩

abbrev nBuf : Space → Nat
  | .hbm => 61
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S16000x16000, .f32⟩
  | .hbm, ⟨3, _⟩ => ⟨S8000x64, .f32⟩
  | .hbm, ⟨4, _⟩ => ⟨S8000x64, .f32⟩
  | .hbm, ⟨5, _⟩ => ⟨S64x64, .f32⟩
  | .hbm, ⟨6, _⟩ => ⟨S64, .f32⟩
  | .hbm, ⟨7, _⟩ => ⟨S16000x64, .f32⟩
  | .hbm, ⟨8, _⟩ => ⟨S16000x64, .f32⟩
  | .hbm, ⟨9, _⟩ => ⟨S16000x64, .f32⟩
  | .hbm, ⟨10, _⟩ => ⟨S1x64, .f32⟩
  | .hbm, ⟨11, _⟩ => ⟨S16000x64, .f32⟩
  | .hbm, ⟨12, _⟩ => ⟨S16000x64, .f32⟩
  | .hbm, ⟨13, _⟩ => ⟨S_, .f32⟩
  | .hbm, ⟨14, _⟩ => ⟨S16000x64, .f32⟩
  | .hbm, ⟨15, _⟩ => ⟨S16000x64, .f32⟩
  | .hbm, ⟨16, _⟩ => ⟨S16000x64, .f32⟩
  | .hbm, ⟨17, _⟩ => ⟨S16000x64, .f32⟩
  | .hbm, ⟨18, _⟩ => ⟨S16000x64, .f32⟩
  | .hbm, ⟨19, _⟩ => ⟨S1x64, .f32⟩
  | .hbm, ⟨20, _⟩ => ⟨S16000x64, .f32⟩
  | .hbm, ⟨21, _⟩ => ⟨S16000x64, .f32⟩
  | .hbm, ⟨22, _⟩ => ⟨S_, .f32⟩
  | .hbm, ⟨23, _⟩ => ⟨S16000x64, .f32⟩
  | .hbm, ⟨24, _⟩ => ⟨S16000x64, .f32⟩
  | .hbm, ⟨25, _⟩ => ⟨S16000x64, .f32⟩
  | .hbm, ⟨26, _⟩ => ⟨S16000x64, .f32⟩
  | .hbm, ⟨27, _⟩ => ⟨S16000x64, .f32⟩
  | .hbm, ⟨28, _⟩ => ⟨S1x64, .f32⟩
  | .hbm, ⟨29, _⟩ => ⟨S16000x64, .f32⟩
  | .hbm, ⟨30, _⟩ => ⟨S16000x64, .f32⟩
  | .hbm, ⟨31, _⟩ => ⟨S_, .f32⟩
  | .hbm, ⟨32, _⟩ => ⟨S16000x64, .f32⟩
  | .hbm, ⟨33, _⟩ => ⟨S16000x64, .f32⟩
  | .hbm, ⟨34, _⟩ => ⟨S16000x64, .f32⟩
  | .hbm, ⟨35, _⟩ => ⟨S_, .f32⟩
  | .hbm, ⟨36, _⟩ => ⟨S16000x64, .f32⟩
  | .hbm, ⟨37, _⟩ => ⟨S16000x64, .f32⟩
  | .hbm, ⟨38, _⟩ => ⟨S8000x64, .f32⟩
  | .hbm, ⟨39, _⟩ => ⟨S8000x64, .f32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S4096x1, .i32⟩
  | .hbm, ⟨48, _⟩ => ⟨S4096x64, .f32⟩
  | .hbm, ⟨49, _⟩ => ⟨S_, .i32⟩
  | .hbm, ⟨50, _⟩ => ⟨S4096, .i32⟩
  | .hbm, ⟨51, _⟩ => ⟨S4096, .i1⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S4096, .i32⟩
  | .hbm, ⟨56, _⟩ => ⟨S4096x1, .i32⟩
  | .hbm, ⟨57, _⟩ => ⟨S4096x64, .f32⟩
  | .hbm, ⟨58, _⟩ => ⟨S4096x64, .f32⟩
  | .hbm, ⟨59, _⟩ => ⟨S_, .f32⟩
  | .hbm, ⟨60, _⟩ => ⟨S4096, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call1_cst : Ref sig .tc := ⟨.hbm, 22, rfl⟩
abbrev main_call1_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call2_cst : Ref sig .tc := ⟨.hbm, 31, rfl⟩
abbrev main_call2_v0 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c : Ref sig .tc := ⟨.hbm, 40, rfl⟩
abbrev main_v26 : Ref sig .tc := ⟨.hbm, 41, rfl⟩
abbrev main_v27 : Ref sig .tc := ⟨.hbm, 42, rfl⟩
abbrev main_c_0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_1 : Ref sig .tc := ⟨.hbm, 49, rfl⟩
abbrev main_v33 : Ref sig .tc := ⟨.hbm, 50, rfl⟩
abbrev main_v34 : Ref sig .tc := ⟨.hbm, 51, rfl⟩
abbrev main_c_2 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩

abbrev nD : Nat := 1
abbrev τ : Topo := Topo.v7x

variable {F : FTy → Type} [FloatOps F]

class Facts₀ : Prop where
  concatenates_S8000x64_S8000x64_S16000x64_d0 : Shape.Concatenates [S8000x64, S8000x64] S16000x64 0
  bcast_S64_S1x64_1 : S64.BroadcastsInDim S1x64 (![1] : Fin 1 → Fin S1x64.rank)
  bcast_S1x64_S16000x64_0_1 : S1x64.BroadcastsInDim S16000x64 (![0, 1] : Fin 2 → Fin S16000x64.rank)
  bcast_S_S16000x64 : S_.BroadcastsInDim S16000x64 (![] : Fin 0 → Fin S16000x64.rank)
  slices_S16000x64_S8000x64_0_0 : S16000x64.Slices ![0, 0] S8000x64
  slices_S16000x64_S8000x64_8000_0 : S16000x64.Slices ![8000, 0] S8000x64
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  dot_S16000x64_S64x64_S16000x64_1_0_0_1_n_n_wf : DotDims.WF S16000x64 S64x64 S16000x64 [1] [0] [0] [1] [] []
  dot_S16000x16000_S16000x64_S16000x64_1_0_0_1_n_n_wf : DotDims.WF S16000x16000 S16000x64 S16000x64 [1] [0] [0] [1] [] []
  gather_S8000x64_S4096x1_S4096x64_1_0_n_n_0_1_164_wf : GatherDims.WF S8000x64 S4096x1 S4096x64 [1] [0] [] [0] [] 1 ![1, 64]

variable [Facts₀]

def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def dot_S16000x16000_S16000x64_S16000x64_1_0_0_1_n_n : DotDims S16000x16000 S16000x64 S16000x64 where
  lhsContracting := [1]
  rhsContracting := [0]
  lhsNonContracting := [0]
  rhsNonContracting := [1]
  lhsBatch := []
  rhsBatch := []
  wf := dot_S16000x16000_S16000x64_S16000x64_1_0_0_1_n_n_wf
def gather_S8000x64_S4096x1_S4096x64_1_0_n_n_0_1_164 : GatherDims S8000x64 S4096x1 S4096x64 where
  offsetDims := [1]
  collapsedSliceDims := [0]
  operandBatchingDims := []
  startIndicesBatchingDims := []
  startIndexMap := [0]
  indexVectorDim := 1
  sliceSizes := ![1, 64]
  wf := gather_S8000x64_S4096x1_S4096x64_1_0_n_n_0_1_164_wf

class Facts : Prop extends Facts₀ where

variable [Facts]
-- ==== Proof.Cases.lean ====
import proofs.«137657_j13134009991420_1_alg».proof.Proof.Gen.KernelIdeal.Launch
import proofs.«137657_j13134009991420_1_alg».proof.Proof.Gen.KernelIdeal.Skeleton
import proofs.«137657_j13134009991420_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contraction tile is the first. -/
abbrev cond_0 (i : grid0.Coords) : Prop :=
  (Scalar.cmpi .ne (Scalar.extui (Scalar.cmpi .eq (BitVec.ofNat 32 (i 1).val) 0#32)) 0#32) = 1#1
/-- The contraction tile is the last. -/
abbrev cond_1 (i : grid0.Coords) : Prop := k0_cond2 i = 1#1

theorem hz_S800x64 : (![0, 0] : Fin S800x64.rank → ℕ) = fun _ => 0 := by
  funext a; match a with | ⟨0, _⟩ => rfl | ⟨1, _⟩ => rfl
theorem hz_S800x3200 : (![0, 0] : Fin S800x3200.rank → ℕ) = fun _ => 0 := by
  funext a; match a with | ⟨0, _⟩ => rfl | ⟨1, _⟩ => rfl
theorem hz_S3200x64 : (![0, 0] : Fin S3200x64.rank → ℕ) = fun _ => 0 := by
  funext a; match a with | ⟨0, _⟩ => rfl | ⟨1, _⟩ => rfl
theorem hz_S1x64 : (![0, 0] : Fin S1x64.rank → ℕ) = fun _ => 0 := by
  funext a; match a with | ⟨0, _⟩ => rfl | ⟨1, _⟩ => rfl

variable (c : Dev nD) (i : grid0.Coords) (arg2 : Memref sig .tc .vmem S800x3200 .f32) (harg2 : arg2.IsWhole)
  (arg3 : Memref sig .tc .vmem S3200x64 .f32) (harg3 : arg3.IsWhole) (arg4 : Memref sig .tc .vmem S1x64 .f32) (harg4 : arg4.IsWhole)
  (arg5 : Memref sig .tc .vmem S800x64 .f32) (harg5 : arg5.IsWhole) (arg6 : Memref sig .tc .vmem S800x64 .f32) (harg6 : arg6.IsWhole)
  (x0 : Vec F S800x3200 .f32) (x1 : Vec F S3200x64 .f32) (x2 : Vec F S1x64 .f32) (xs0 : Vec F S800x64 .f32)

set_option maxHeartbeats 1000000 in
/-- First tile of a row tile: the accumulator enters at anything and leaves with the run's stores. -/
noncomputable def kernelRun_A (hc0 : cond_0 i) (hc1 : ¬cond_1 i) :
    { LS0 : List (View.Piece (Elt F) S800x64 .f32) //
      ∀ (xi3 : Vec F S800x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__spmm_relu_kernel i arg2 harg2 arg3 harg3 arg4 harg4 arg5 harg5 arg6 harg6) K } := by
  refine ⟨?_, fun xi3 E K => ?run⟩
  case run =>
    simp only [cc0__spmm_relu_kernel_eq_skeleton]; unfold cc0__spmm_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- A middle tile: the accumulator enters at `xs0`. -/
noncomputable def kernelRun_B (hc0 : ¬cond_0 i) (hc1 : ¬cond_1 i) :
    { LS0 : List (View.Piece (Elt F) S800x64 .f32) //
      ∀ (xi3 : Vec F S800x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__spmm_relu_kernel i arg2 harg2 arg3 harg3 arg4 harg4 arg5 harg5 arg6 harg6) K } := by
  refine ⟨?_, fun xi3 E K => ?run⟩
  case run =>
    simp only [cc0__spmm_relu_kernel_eq_skeleton]; unfold cc0__spmm_relu_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- The last tile: the output block enters at anything; both leave with the run's stores. -/
noncomputable def kernelRun_C (hc0 : ¬cond_0 i) (hc1 : cond_1 i) :
    Σ' (L3 : List (View.Piece (Elt F) S800x64 .f32)), { LS0 : List (View.Piece (Elt F) S800x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__spmm_relu_kernel i arg2 harg2 arg3 harg3 arg4 harg4 arg5 harg5 arg6 harg6) K } := by
  refine ⟨?_, ?_, fun E K => ?run⟩
  case run =>
    simp only [cc0__spmm_relu_kernel_eq_skeleton]; unfold cc0__spmm_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-- After the first tile the accumulator holds the tile's partial product added to zero. -/
theorem acc_A (hc0 : cond_0 i) (hc1 : ¬cond_1 i) {v : View sig .tc .vmem S800x64 .f32} (f : v.ty.Contents (Elt F)) :
    v.read (Elt F) (v.writes (Elt F) f (kernelRun_A c i arg2 harg2 arg3 harg3 arg4 harg4 arg5 harg5 arg6 harg6 x0 x1 x2 hc0 hc1).1) = k0_pay2 x0 x1 (k0_pay1 (F := F)) := by
  rw [View.read_writes_eq_canon _ _ _ (View.cover_of_tiledL _ S800x64.size (by sl_kernel_rfl))]
  unfold kernelRun_A
  dsimp only
  sl_unfold_words
  rw [View.canon_cons_unit_zero (S := S800x64) hz_S800x64]
  simp only [View.readCov_unit_zero (S := S800x64) _ hz_S800x64, View.readAt_eq_ld, harg2.read_unread, harg3.read_unread,
    View.ld_unit_zero (S := S800x3200) hz_S800x3200, View.ld_unit_zero (S := S3200x64) hz_S3200x64]

/-- After a middle tile: the partial product added to what was there. -/
theorem acc_B (hc0 : ¬cond_0 i) (hc1 : ¬cond_1 i) {v : View sig .tc .vmem S800x64 .f32} (f : v.ty.Contents (Elt F)) :
    v.read (Elt F) (v.writes (Elt F) f (kernelRun_B c i arg2 harg2 arg3 harg3 arg4 harg4 arg5 harg5 arg6 harg6 x0 x1 x2 xs0 hc0 hc1).1) = k0_pay2 x0 x1 xs0 := by
  rw [View.read_writes_eq_canon _ _ _ (View.cover_of_tiledL _ S800x64.size (by sl_kernel_rfl))]
  unfold kernelRun_B
  dsimp only
  sl_unfold_words
  rw [View.canon_unit_zero (S := S800x64) hz_S800x64]
  simp only [View.readAt_eq_ld, harg2.read_unread, harg3.read_unread, harg6.read_unread,
    View.ld_unit_zero (S := S800x3200) hz_S800x3200, View.ld_unit_zero (S := S3200x64) hz_S3200x64, View.ld_unit_zero (S := S800x64) hz_S800x64]

/-- After the last tile the accumulator is as after a middle one, -/
theorem acc_C (hc0 : ¬cond_0 i) (hc1 : cond_1 i) {v : View sig .tc .vmem S800x64 .f32} (f : v.ty.Contents (Elt F)) :
    v.read (Elt F) (v.writes (Elt F) f (kernelRun_C c i arg2 harg2 arg3 harg3 arg4 harg4 arg5 harg5 arg6 harg6 x0 x1 x2 xs0 hc0 hc1).2.1) = k0_pay2 x0 x1 xs0 := by
  rw [View.read_writes_eq_canon _ _ _ (View.cover_of_tiledL _ S800x64.size (by sl_kernel_rfl))]
  unfold kernelRun_C
  dsimp only
  sl_unfold_words
  rw [View.canon_unit_zero (S := S800x64) hz_S800x64]
  simp only [View.readAt_eq_ld, harg2.read_unread, harg3.read_unread, harg6.read_unread,
    View.ld_unit_zero (S := S800x3200) hz_S800x3200, View.ld_unit_zero (S := S3200x64) hz_S3200x64, View.ld_unit_zero (S := S800x64) hz_S800x64]

/-- and the output block holds it plus the bias row, rectified. -/
theorem out_C (hc0 : ¬cond_0 i) (hc1 : cond_1 i) {v : View sig .tc .vmem S800x64 .f32} (f : v.ty.Contents (Elt F)) :
    v.read (Elt F) (v.writes (Elt F) f (kernelRun_C c i arg2 harg2 arg3 harg3 arg4 harg4 arg5 harg5 arg6 harg6 x0 x1 x2 xs0 hc0 hc1).1) = k0_pay3 (k0_pay2 x0 x1 xs0) x2 := by
  rw [View.read_writes_eq_canon _ _ _ (View.cover_of_tiledL _ S800x64.size (by sl_kernel_rfl))]
  unfold kernelRun_C
  dsimp only
  sl_unfold_words
  rw [View.canon_unit_zero (S := S800x64) hz_S800x64]
  simp only [View.readCov_unit_zero (S := S800x64) _ hz_S800x64, View.readAt_eq_ld, harg2.read_unread, harg3.read_unread, harg4.read_unread, harg6.read_unread,
    View.ld_unit_zero (S := S800x3200) hz_S800x3200, View.ld_unit_zero (S := S3200x64) hz_S3200x64, View.ld_unit_zero (S := S800x64) hz_S800x64, View.ld_unit_zero (S := S1x64) hz_S1x64]

end Cert.KernelIdeal.Hand

end
-- ==== Proof.Sched0.lean ====
import proofs.«137657_j13134009991420_1_alg».proof.Proof.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

theorem hcond0_0 : ∀ t : Fin cfg0.N, cond_0 (grid0.coords t) ↔ t.val % 5 = 0 :=
  (by decide +kernel : ∀ t : Fin grid0.N, cond_0 (grid0.coords t) ↔ t.val % 5 = 0)
theorem hcond0_1 : ∀ t : Fin cfg0.N, cond_1 (grid0.coords t) ↔ t.val % 5 = 4 :=
  (by decide +kernel : ∀ t : Fin grid0.N, cond_1 (grid0.coords t) ↔ t.val % 5 = 4)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Only the last contraction tile of a row tile touches the output block. -/
theorem idleAt0_3 : ∀ t : Fin cfg0.N, ¬cond_1 (grid0.coords t) → cfg0.idle 3 (grid0.coords t) = true := by decide +kernel
theorem noFlush0_3 : ∀ t : Fin cfg0.N, ¬cond_1 (grid0.coords t) → (cfg0.win 3).flush t = false := by decide +kernel
theorem liveAt0_3 : ∀ t : Fin cfg0.N, cond_1 (grid0.coords t) → cfg0.idle 3 (grid0.coords t) = false := by decide +kernel

abbrev ms0_0 (t : Fin cfg0.N) : Memref sig .tc .vmem S800x3200 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3200x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S800x64 .f32 := win0_3.stage (cfg0.slots t 3)
abbrev hs0_3 (t : Fin cfg0.N) : (ms0_3 t).IsWhole := hstage0_3 ((cfg0.slots t 3).cast nbuf0_3)
/-- The accumulator: one row tile of partial sums, kept across the five contraction tiles. -/
abbrev scM0_0 : Memref sig .tc .vmem S800x64 .f32 := Memref.whole cc0_scratch0

theorem bodyAt0_eq (t : Fin cfg0.N) : bodyAt0 (F := F) t
    = cc0__spmm_relu_kernel (grid0.coords t) (ms0_0 t) (hs0_0 t) (ms0_1 t) (hs0_1 t) (ms0_2 t) (hs0_2 t) (ms0_3 t) (hs0_3 t) scM0_0 (Memref.isWhole_whole _) := rfl

abbrev others0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA
  rw [Pipeline.scopedRest_split_of_list spec0 c [cc0_scratch0] (by decide) (by decide)]
  simp only [scM0_0, owns_whole, bigSepL]
  rfl

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
abbrev gblk0 (c : Dev nD) (t : Fin cfg0.N) : Vec F S800x3200 .f32 := iblk0 V c 0 t
abbrev hblk0 (c : Dev nD) (t : Fin cfg0.N) : Vec F S3200x64 .f32 := iblk0 V c 1 t
abbrev bblk0 (c : Dev nD) (t : Fin cfg0.N) : Vec F S1x64 .f32 := iblk0 V c 2 t

end Cert.KernelIdeal.Hand

end
-- ==== Proof.Body0.lean ====
import proofs.«137657_j13134009991420_1_alg».proof.Proof.Sched0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- The accumulator after position `n`: the tile's partial product added to zero at a first tile, else to what the
    position before left. -/
def accAt0 (c : Dev nD) : (n : ℕ) → n < cfg0.N → Vec F S800x64 .f32
  | 0, hn => k0_pay2 (gblk0 V c ⟨0, hn⟩) (hblk0 V c ⟨0, hn⟩) (k0_pay1 (F := F))
  | n + 1, hn => k0_pay2 (gblk0 V c ⟨n + 1, hn⟩) (hblk0 V c ⟨n + 1, hn⟩)
      (if (n + 1) % 5 = 0 then k0_pay1 (F := F) else accAt0 c n (Nat.lt_of_succ_lt hn))

theorem accAt0_first (c : Dev nD) (t : Fin cfg0.N) (h0 : t.val % 5 = 0) :
    accAt0 V c t.val t.isLt = k0_pay2 (gblk0 V c t) (hblk0 V c t) (k0_pay1 (F := F)) := by
  obtain ⟨n, hn⟩ := t
  cases n with
  | zero => rfl
  | succ n => exact congrArg (k0_pay2 _ _) (if_pos h0)

theorem accAt0_next (c : Dev nD) (t : Fin cfg0.N) (h0 : ¬t.val % 5 = 0) :
    accAt0 V c t.val t.isLt = k0_pay2 (gblk0 V c t) (hblk0 V c t) (accAt0 V c (t.val - 1) (Nat.lt_of_le_of_lt (Nat.sub_le _ _) t.isLt)) := by
  obtain ⟨n, hn⟩ := t
  cases n with
  | zero => exact absurd (Nat.zero_mod _) h0
  | succ n => exact congrArg (k0_pay2 _ _) (if_neg h0)

/-- Before position `n`: at the region's entry the resting invariant; afterwards the accumulator at what the position
    before left. -/
def PhiS0 (c : Dev nD) : (n : ℕ) → n ≤ cfg0.N → sProp 𝕄
  | 0, _ => Pipeline.ΦA spec0 c
  | n + 1, hn => iprop(iprop(owns (c : Thread nD τ) scM0_0 fullShare (accAt0 V c n hn) ∗ others0 c) ∗ (∃ r, prngReg c r))

theorem PhiS0_succ (c : Dev nD) (n : ℕ) (hn : n < cfg0.N) :
    PhiS0 V c (n + 1) hn = iprop(iprop(owns (c : Thread nD τ) scM0_0 fullShare (accAt0 V c n hn) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (accAt0 V c (n - 1) (by omega)) ∗ others0 c) ∗ (∃ r, prngReg c r)) := by
  cases n with
  | zero => exact absurd rfl hz
  | succ n => rfl

/-- At any position the invariant gives the resting one back: the accumulator's contents are forgotten. -/
theorem PhiS0_forget (c : Dev nD) (n : ℕ) (h : n ≤ cfg0.N) : PhiS0 V c n h ⊢ Pipeline.ΦA spec0 c := by
  cases n with
  | zero => exact .rfl
  | succ n =>
    rw [PhiS0_succ, PhiA0_eq]
    iintro ⟨⟨HS0, Hoth⟩, Hg⟩
    isplitl [HS0 Hoth]
    · isplitl [HS0]
      · iexists _; iexact HS0
      iexact Hoth
    iexact Hg

/-- The arrays as the region finds them; after the body each input block as it was, the output block at the
    accumulator plus the bias row, rectified; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAt0 V c t.val t.isLt) (bblk0 V c t)
  Φ t := PhiS0 V c t.val (Nat.le_of_lt_succ t.isLt)
  q _ := fullShare
  owed _ := 0

theorem A_eq0 (c : Dev nD) (w : Fin cfg0.W) : (dat0 V c).A w = V c (Pipeline.arrRef spec0 w) := rfl

theorem PhiS0_castSucc (c : Dev nD) (t : Fin cfg0.N) :
    (dat0 V c).Φ t.castSucc = PhiS0 V c t.val (Nat.le_of_lt t.isLt) := by
  dsimp only [dat0]; simp only [Fin.coe_castSucc]

theorem after0_3 (c : Dev nD) (t : Fin cfg0.N) : (dat0 V c).after 3 t = k0_pay3 (accAt0 V c t.val t.isLt) (bblk0 V c t) := rfl

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) :
    (dat0 V c).leavesExact 0 t = owns (c : Thread nD τ) (ms0_0 t) fullShare (iblk0 V c 0 t) := by
  unfold Dat.leavesExact; rw [liveAt0_0 t]; rfl
theorem leaves0_1 (c : Dev nD) (t : Fin cfg0.N) :
    (dat0 V c).leavesExact 1 t = owns (c : Thread nD τ) (ms0_1 t) fullShare (iblk0 V c 1 t) := by
  unfold Dat.leavesExact; rw [liveAt0_1 t]; rfl
theorem leaves0_2 (c : Dev nD) (t : Fin cfg0.N) :
    (dat0 V c).leavesExact 2 t = owns (c : Thread nD τ) (ms0_2 t) fullShare (iblk0 V c 2 t) := by
  unfold Dat.leavesExact; rw [liveAt0_2 t]; rfl

set_option maxHeartbeats 4800000 in
/-- The body at any point: `t % 5` says which case it is in; the invariant hands the body the accumulator at what the
    point before left (at anything at a first tile) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  rw [bodyAt0_eq]
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, PhiS0_castSucc V c t]
  by_cases h0 : t.val % 5 = 0
  · have h1 : ¬t.val % 5 = 4 := by omega
    have hf := PhiS0_forget V c t.val (Nat.le_of_lt t.isLt)
    rw [PhiA0_eq] at hf
    rw [Dat.leavesExact_idle (dat0 V c) 3 t (idleAt0_3 t (fun h => h1 ((hcond0_1 t).mp h))) (noFlush0_3 t (fun h => h1 ((hcond0_1 t).mp h)))]
    rw [accAt0_first V c t h0]
    iintro ⟨HPhi, Ho, ⟨%d0, H0⟩, ⟨%d1, H1⟩, ⟨%d2, H2⟩, ⟨%d3, H3⟩⟩
    ihave H := hf $$ HPhi
    icases H with ⟨⟨HS0, Hoth⟩, Hg⟩
    iapply ((kernelRun_A c (grid0.coords t) _ _ _ _ _ _ _ _ _ _ (gblk0 V c t) (hblk0 V c t) (bblk0 V c t) ((hcond0_0 t).mpr h0) (fun h => h1 ((hcond0_1 t).mp h))).2 _ Set.univ _)
    iframe H0 H1 H2 H3 HS0
    iintro ⟨H0, H1, H2, H3, ⟨%es0, HS0⟩⟩
    iframe Hoth Hg Ho H0 H1 H2
    isplitl [HS0]
    · unfold owns; iexists _; isplitr
      swap; · iexact HS0
      ipureintro; exact acc_A c _ _ _ _ _ _ _ _ _ _ _ _ _ _ _ _ _
    iexists _; iexact H3
  · have hz : t.val ≠ 0 := fun h => h0 (by rw [h])
    rw [PhiS0_pos V c _ _ hz, accAt0_next V c t h0]
    by_cases h1 : t.val % 5 = 4
    · rw [show (dat0 V c).leavesExact 3 t = owns (c : Thread nD τ) (ms0_3 t) fullShare ((dat0 V c).after 3 t) from by
        unfold Dat.leavesExact; rw [liveAt0_3 t ((hcond0_1 t).mpr h1)], after0_3, accAt0_next V c t h0]
      iintro ⟨⟨⟨HS0, Hoth⟩, Hg⟩, Ho, ⟨%d0, H0⟩, ⟨%d1, H1⟩, ⟨%d2, H2⟩, ⟨%d3, H3⟩⟩
      iapply ((kernelRun_C c (grid0.coords t) _ _ _ _ _ _ _ _ _ _ (gblk0 V c t) (hblk0 V c t) (bblk0 V c t) _ (fun h => h0 ((hcond0_0 t).mp h)) ((hcond0_1 t).mpr h1)).2.2 Set.univ _)
      iframe H0 H1 H2 HS0
      isplitl [H3]; · iexists _; iexact H3
      iintro ⟨H0, H1, H2, ⟨%e3, H3⟩, ⟨%es0, HS0⟩⟩
      iframe Hoth Hg Ho H0 H1 H2
      isplitl [HS0]
      · unfold owns; iexists _; isplitr
        swap; · iexact HS0
        ipureintro; exact acc_C c _ _ _ _ _ _ _ _ _ _ _ _ _ _ _ _ _ _
      unfold owns; iexists _; isplitr
      swap; · iexact H3
      ipureintro; exact out_C c _ _ _ _ _ _ _ _ _ _ _ _ _ _ _ _ _ _
    · rw [Dat.leavesExact_idle (dat0 V c) 3 t (idleAt0_3 t (fun h => h1 ((hcond0_1 t).mp h))) (noFlush0_3 t (fun h => h1 ((hcond0_1 t).mp h)))]
      iintro ⟨⟨⟨HS0, Hoth⟩, Hg⟩, Ho, ⟨%d0, H0⟩, ⟨%d1, H1⟩, ⟨%d2, H2⟩, ⟨%d3, H3⟩⟩
      iapply ((kernelRun_B c (grid0.coords t) _ _ _ _ _ _ _ _ _ _ (gblk0 V c t) (hblk0 V c t) (bblk0 V c t) _ (fun h => h0 ((hcond0_0 t).mp h)) (fun h => h1 ((hcond0_1 t).mp h))).2 _ Set.univ _)
      iframe H0 H1 H2 H3 HS0
      iintro ⟨H0, H1, H2, H3, ⟨%es0, HS0⟩⟩
      iframe Hoth Hg Ho H0 H1 H2
      isplitl [HS0]
      · unfold owns; iexists _; isplitr
        swap; · iexact HS0
        ipureintro; exact acc_B c _ _ _ _ _ _ _ _ _ _ _ _ _ _ _ _ _ _
      iexists _; iexact H3

theorem body_obligation0 (c : Dev nD) : BodyObligation (dat0 (F := F) V c) (defs₀ (F := F)) Variants.none () Set.univ := fun t => by
  rw [bigSep_W0, bigSep_W0]
  exact sound_body0 V c t

theorem hout0 (c : Dev nD) : (dat0 V c).Φ (Fin.last cfg0.N) ⊢ Pipeline.ΦA spec0 c :=
  PhiS0_forget V c (Fin.last cfg0.N).val (Nat.le_of_lt_succ (Fin.last cfg0.N).isLt)

end Cert.KernelIdeal.Hand

end
-- ==== Proof.Sched1.lean ====
import proofs.«137657_j13134009991420_1_alg».proof.Proof.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

theorem hcond1_0 : ∀ t : Fin cfg1.N, cond_0 (grid1.coords t) ↔ t.val % 5 = 0 :=
  (by decide +kernel : ∀ t : Fin grid1.N, cond_0 (grid1.coords t) ↔ t.val % 5 = 0)
theorem hcond1_1 : ∀ t : Fin cfg1.N, cond_1 (grid1.coords t) ↔ t.val % 5 = 4 :=
  (by decide +kernel : ∀ t : Fin grid1.N, cond_1 (grid1.coords t) ↔ t.val % 5 = 4)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Only the last contraction tile of a row tile touches the output block. -/
theorem idleAt1_3 : ∀ t : Fin cfg1.N, ¬cond_1 (grid1.coords t) → cfg1.idle 3 (grid1.coords t) = true := by decide +kernel
theorem noFlush1_3 : ∀ t : Fin cfg1.N, ¬cond_1 (grid1.coords t) → (cfg1.win 3).flush t = false := by decide +kernel
theorem liveAt1_3 : ∀ t : Fin cfg1.N, cond_1 (grid1.coords t) → cfg1.idle 3 (grid1.coords t) = false := by decide +kernel

abbrev ms1_0 (t : Fin cfg1.N) : Memref sig .tc .vmem S800x3200 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3200x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S800x64 .f32 := win1_3.stage (cfg1.slots t 3)
abbrev hs1_3 (t : Fin cfg1.N) : (ms1_3 t).IsWhole := hstage1_3 ((cfg1.slots t 3).cast nbuf1_3)
/-- The accumulator: one row tile of partial sums, kept across the five contraction tiles. -/
abbrev scM1_0 : Memref sig .tc .vmem S800x64 .f32 := Memref.whole cc1_scratch0

theorem bodyAt1_eq (t : Fin cfg1.N) : bodyAt1 (F := F) t
    = cc0__spmm_relu_kernel (grid1.coords t) (ms1_0 t) (hs1_0 t) (ms1_1 t) (hs1_1 t) (ms1_2 t) (hs1_2 t) (ms1_3 t) (hs1_3 t) scM1_0 (Memref.isWhole_whole _) := rfl

abbrev others1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA
  rw [Pipeline.scopedRest_split_of_list spec1 c [cc1_scratch0] (by decide) (by decide)]
  simp only [scM1_0, owns_whole, bigSepL]
  rfl

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
abbrev gblk1 (c : Dev nD) (t : Fin cfg1.N) : Vec F S800x3200 .f32 := iblk1 V c 0 t
abbrev hblk1 (c : Dev nD) (t : Fin cfg1.N) : Vec F S3200x64 .f32 := iblk1 V c 1 t
abbrev bblk1 (c : Dev nD) (t : Fin cfg1.N) : Vec F S1x64 .f32 := iblk1 V c 2 t

end Cert.KernelIdeal.Hand

end
-- ==== Proof.Body1.lean ====
import proofs.«137657_j13134009991420_1_alg».proof.Proof.Sched1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- The accumulator after position `n`: the tile's partial product added to zero at a first tile, else to what the
    position before left. -/
def accAt1 (c : Dev nD) : (n : ℕ) → n < cfg1.N → Vec F S800x64 .f32
  | 0, hn => k0_pay2 (gblk1 V c ⟨0, hn⟩) (hblk1 V c ⟨0, hn⟩) (k0_pay1 (F := F))
  | n + 1, hn => k0_pay2 (gblk1 V c ⟨n + 1, hn⟩) (hblk1 V c ⟨n + 1, hn⟩)
      (if (n + 1) % 5 = 0 then k0_pay1 (F := F) else accAt1 c n (Nat.lt_of_succ_lt hn))

theorem accAt1_first (c : Dev nD) (t : Fin cfg1.N) (h0 : t.val % 5 = 0) :
    accAt1 V c t.val t.isLt = k0_pay2 (gblk1 V c t) (hblk1 V c t) (k0_pay1 (F := F)) := by
  obtain ⟨n, hn⟩ := t
  cases n with
  | zero => rfl
  | succ n => exact congrArg (k0_pay2 _ _) (if_pos h0)

theorem accAt1_next (c : Dev nD) (t : Fin cfg1.N) (h0 : ¬t.val % 5 = 0) :
    accAt1 V c t.val t.isLt = k0_pay2 (gblk1 V c t) (hblk1 V c t) (accAt1 V c (t.val - 1) (Nat.lt_of_le_of_lt (Nat.sub_le _ _) t.isLt)) := by
  obtain ⟨n, hn⟩ := t
  cases n with
  | zero => exact absurd (Nat.zero_mod _) h0
  | succ n => exact congrArg (k0_pay2 _ _) (if_neg h0)

/-- Before position `n`: at the region's entry the resting invariant; afterwards the accumulator at what the position
    before left. -/
def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ others1 c) ∗ (∃ r, prngReg c r))

theorem PhiS1_succ (c : Dev nD) (n : ℕ) (hn : n < cfg1.N) :
    PhiS1 V c (n + 1) hn = iprop(iprop(owns (c : Thread nD τ) scM1_0 fullShare (accAt1 V c n hn) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (accAt1 V c (n - 1) (by omega)) ∗ others1 c) ∗ (∃ r, prngReg c r)) := by
  cases n with
  | zero => exact absurd rfl hz
  | succ n => rfl

/-- At any position the invariant gives the resting one back: the accumulator's contents are forgotten. -/
theorem PhiS1_forget (c : Dev nD) (n : ℕ) (h : n ≤ cfg1.N) : PhiS1 V c n h ⊢ Pipeline.ΦA spec1 c := by
  cases n with
  | zero => exact .rfl
  | succ n =>
    rw [PhiS1_succ, PhiA1_eq]
    iintro ⟨⟨HS0, Hoth⟩, Hg⟩
    isplitl [HS0 Hoth]
    · isplitl [HS0]
      · iexists _; iexact HS0
      iexact Hoth
    iexact Hg

/-- The arrays as the region finds them; after the body each input block as it was, the output block at the
    accumulator plus the bias row, rectified; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k0_pay3 (accAt1 V c t.val t.isLt) (bblk1 V c t)
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_3 (c : Dev nD) (t : Fin cfg1.N) : (dat1 V c).after 3 t = k0_pay3 (accAt1 V c t.val t.isLt) (bblk1 V c t) := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (ms1_0 t) fullShare (iblk1 V c 0 t) := by
  unfold Dat.leavesExact; rw [liveAt1_0 t]; rfl
theorem leaves1_1 (c : Dev nD) (t : Fin cfg1.N) :
    (dat1 V c).leavesExact 1 t = owns (c : Thread nD τ) (ms1_1 t) fullShare (iblk1 V c 1 t) := by
  unfold Dat.leavesExact; rw [liveAt1_1 t]; rfl
theorem leaves1_2 (c : Dev nD) (t : Fin cfg1.N) :
    (dat1 V c).leavesExact 2 t = owns (c : Thread nD τ) (ms1_2 t) fullShare (iblk1 V c 2 t) := by
  unfold Dat.leavesExact; rw [liveAt1_2 t]; rfl

set_option maxHeartbeats 4800000 in
/-- The body at any point: `t % 5` says which case it is in; the invariant hands the body the accumulator at what the
    point before left (at anything at a first tile) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  rw [bodyAt1_eq]
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, PhiS1_castSucc V c t]
  by_cases h0 : t.val % 5 = 0
  · have h1 : ¬t.val % 5 = 4 := by omega
    have hf := PhiS1_forget V c t.val (Nat.le_of_lt t.isLt)
    rw [PhiA1_eq] at hf
    rw [Dat.leavesExact_idle (dat1 V c) 3 t (idleAt1_3 t (fun h => h1 ((hcond1_1 t).mp h))) (noFlush1_3 t (fun h => h1 ((hcond1_1 t).mp h)))]
    rw [accAt1_first V c t h0]
    iintro ⟨HPhi, Ho, ⟨%d0, H0⟩, ⟨%d1, H1⟩, ⟨%d2, H2⟩, ⟨%d3, H3⟩⟩
    ihave H := hf $$ HPhi
    icases H with ⟨⟨HS0, Hoth⟩, Hg⟩
    iapply ((kernelRun_A c (grid1.coords t) _ _ _ _ _ _ _ _ _ _ (gblk1 V c t) (hblk1 V c t) (bblk1 V c t) ((hcond1_0 t).mpr h0) (fun h => h1 ((hcond1_1 t).mp h))).2 _ Set.univ _)
    iframe H0 H1 H2 H3 HS0
    iintro ⟨H0, H1, H2, H3, ⟨%es0, HS0⟩⟩
    iframe Hoth Hg Ho H0 H1 H2
    isplitl [HS0]
    · unfold owns; iexists _; isplitr
      swap; · iexact HS0
      ipureintro; exact acc_A c _ _ _ _ _ _ _ _ _ _ _ _ _ _ _ _ _
    iexists _; iexact H3
  · have hz : t.val ≠ 0 := fun h => h0 (by rw [h])
    rw [PhiS1_pos V c _ _ hz, accAt1_next V c t h0]
    by_cases h1 : t.val % 5 = 4
    · rw [show (dat1 V c).leavesExact 3 t = owns (c : Thread nD τ) (ms1_3 t) fullShare ((dat1 V c).after 3 t) from by
        unfold Dat.leavesExact; rw [liveAt1_3 t ((hcond1_1 t).mpr h1)], after1_3, accAt1_next V c t h0]
      iintro ⟨⟨⟨HS0, Hoth⟩, Hg⟩, Ho, ⟨%d0, H0⟩, ⟨%d1, H1⟩, ⟨%d2, H2⟩, ⟨%d3, H3⟩⟩
      iapply ((kernelRun_C c (grid1.coords t) _ _ _ _ _ _ _ _ _ _ (gblk1 V c t) (hblk1 V c t) (bblk1 V c t) _ (fun h => h0 ((hcond1_0 t).mp h)) ((hcond1_1 t).mpr h1)).2.2 Set.univ _)
      iframe H0 H1 H2 HS0
      isplitl [H3]; · iexists _; iexact H3
      iintro ⟨H0, H1, H2, ⟨%e3, H3⟩, ⟨%es0, HS0⟩⟩
      iframe Hoth Hg Ho H0 H1 H2
      isplitl [HS0]
      · unfold owns; iexists _; isplitr
        swap; · iexact HS0
        ipureintro; exact acc_C c _ _ _ _ _ _ _ _ _ _ _ _ _ _ _ _ _ _
      unfold owns; iexists _; isplitr
      swap; · iexact H3
      ipureintro; exact out_C c _ _ _ _ _ _ _ _ _ _ _ _ _ _ _ _ _ _
    · rw [Dat.leavesExact_idle (dat1 V c) 3 t (idleAt1_3 t (fun h => h1 ((hcond1_1 t).mp h))) (noFlush1_3 t (fun h => h1 ((hcond1_1 t).mp h)))]
      iintro ⟨⟨⟨HS0, Hoth⟩, Hg⟩, Ho, ⟨%d0, H0⟩, ⟨%d1, H1⟩, ⟨%d2, H2⟩, ⟨%d3, H3⟩⟩
      iapply ((kernelRun_B c (grid1.coords t) _ _ _ _ _ _ _ _ _ _ (gblk1 V c t) (hblk1 V c t) (bblk1 V c t) _ (fun h => h0 ((hcond1_0 t).mp h)) (fun h => h1 ((hcond1_1 t).mp h))).2 _ Set.univ _)
      iframe H0 H1 H2 H3 HS0
      iintro ⟨H0, H1, H2, H3, ⟨%es0, HS0⟩⟩
      iframe Hoth Hg Ho H0 H1 H2
      isplitl [HS0]
      · unfold owns; iexists _; isplitr
        swap; · iexact HS0
        ipureintro; exact acc_B c _ _ _ _ _ _ _ _ _ _ _ _ _ _ _ _ _ _
      iexists _; iexact H3

theorem body_obligation1 (c : Dev nD) : BodyObligation (dat1 (F := F) V c) (defs₀ (F := F)) Variants.none () Set.univ := fun t => by
  rw [bigSep_W1, bigSep_W1]
  exact sound_body1 V c t

theorem hout1 (c : Dev nD) : (dat1 V c).Φ (Fin.last cfg1.N) ⊢ Pipeline.ΦA spec1 c :=
  PhiS1_forget V c (Fin.last cfg1.N).val (Nat.le_of_lt_succ (Fin.last cfg1.N).isLt)

end Cert.KernelIdeal.Hand

end
-- ==== Proof.Sched2.lean ====
import proofs.«137657_j13134009991420_1_alg».proof.Proof.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

theorem hcond2_0 : ∀ t : Fin cfg2.N, cond_0 (grid2.coords t) ↔ t.val % 5 = 0 :=
  (by decide +kernel : ∀ t : Fin grid2.N, cond_0 (grid2.coords t) ↔ t.val % 5 = 0)
theorem hcond2_1 : ∀ t : Fin cfg2.N, cond_1 (grid2.coords t) ↔ t.val % 5 = 4 :=
  (by decide +kernel : ∀ t : Fin grid2.N, cond_1 (grid2.coords t) ↔ t.val % 5 = 4)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Only the last contraction tile of a row tile touches the output block. -/
theorem idleAt2_3 : ∀ t : Fin cfg2.N, ¬cond_1 (grid2.coords t) → cfg2.idle 3 (grid2.coords t) = true := by decide +kernel
theorem noFlush2_3 : ∀ t : Fin cfg2.N, ¬cond_1 (grid2.coords t) → (cfg2.win 3).flush t = false := by decide +kernel
theorem liveAt2_3 : ∀ t : Fin cfg2.N, cond_1 (grid2.coords t) → cfg2.idle 3 (grid2.coords t) = false := by decide +kernel

abbrev ms2_0 (t : Fin cfg2.N) : Memref sig .tc .vmem S800x3200 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S3200x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S800x64 .f32 := win2_3.stage (cfg2.slots t 3)
abbrev hs2_3 (t : Fin cfg2.N) : (ms2_3 t).IsWhole := hstage2_3 ((cfg2.slots t 3).cast nbuf2_3)
/-- The accumulator: one row tile of partial sums, kept across the five contraction tiles. -/
abbrev scM2_0 : Memref sig .tc .vmem S800x64 .f32 := Memref.whole cc2_scratch0

theorem bodyAt2_eq (t : Fin cfg2.N) : bodyAt2 (F := F) t
    = cc0__spmm_relu_kernel (grid2.coords t) (ms2_0 t) (hs2_0 t) (ms2_1 t) (hs2_1 t) (ms2_2 t) (hs2_2 t) (ms2_3 t) (hs2_3 t) scM2_0 (Memref.isWhole_whole _) := rfl

abbrev others2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2_0 fullShare d) ∗ others2 c) ∗ (∃ r, prngReg c r)) := by
  unfold Pipeline.ΦA
  rw [Pipeline.scopedRest_split_of_list spec2 c [cc2_scratch0] (by decide) (by decide)]
  simp only [scM2_0, owns_whole, bigSepL]
  rfl

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
abbrev gblk2 (c : Dev nD) (t : Fin cfg2.N) : Vec F S800x3200 .f32 := iblk2 V c 0 t
abbrev hblk2 (c : Dev nD) (t : Fin cfg2.N) : Vec F S3200x64 .f32 := iblk2 V c 1 t
abbrev bblk2 (c : Dev nD) (t : Fin cfg2.N) : Vec F S1x64 .f32 := iblk2 V c 2 t

end Cert.KernelIdeal.Hand

end
-- ==== Proof.Body2.lean ====
import proofs.«137657_j13134009991420_1_alg».proof.Proof.Sched2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- The accumulator after position `n`: the tile's partial product added to zero at a first tile, else to what the
    position before left. -/
def accAt2 (c : Dev nD) : (n : ℕ) → n < cfg2.N → Vec F S800x64 .f32
  | 0, hn => k0_pay2 (gblk2 V c ⟨0, hn⟩) (hblk2 V c ⟨0, hn⟩) (k0_pay1 (F := F))
  | n + 1, hn => k0_pay2 (gblk2 V c ⟨n + 1, hn⟩) (hblk2 V c ⟨n + 1, hn⟩)
      (if (n + 1) % 5 = 0 then k0_pay1 (F := F) else accAt2 c n (Nat.lt_of_succ_lt hn))

theorem accAt2_first (c : Dev nD) (t : Fin cfg2.N) (h0 : t.val % 5 = 0) :
    accAt2 V c t.val t.isLt = k0_pay2 (gblk2 V c t) (hblk2 V c t) (k0_pay1 (F := F)) := by
  obtain ⟨n, hn⟩ := t
  cases n with
  | zero => rfl
  | succ n => exact congrArg (k0_pay2 _ _) (if_pos h0)

theorem accAt2_next (c : Dev nD) (t : Fin cfg2.N) (h0 : ¬t.val % 5 = 0) :
    accAt2 V c t.val t.isLt = k0_pay2 (gblk2 V c t) (hblk2 V c t) (accAt2 V c (t.val - 1) (Nat.lt_of_le_of_lt (Nat.sub_le _ _) t.isLt)) := by
  obtain ⟨n, hn⟩ := t
  cases n with
  | zero => exact absurd (Nat.zero_mod _) h0
  | succ n => exact congrArg (k0_pay2 _ _) (if_neg h0)

/-- Before position `n`: at the region's entry the resting invariant; afterwards the accumulator at what the position
    before left. -/
def PhiS2 (c : Dev nD) : (n : ℕ) → n ≤ cfg2.N → sProp 𝕄
  | 0, _ => Pipeline.ΦA spec2 c
  | n + 1, hn => iprop(iprop(owns (c : Thread nD τ) scM2_0 fullShare (accAt2 V c n hn) ∗ others2 c) ∗ (∃ r, prngReg c r))

theorem PhiS2_succ (c : Dev nD) (n : ℕ) (hn : n < cfg2.N) :
    PhiS2 V c (n + 1) hn = iprop(iprop(owns (c : Thread nD τ) scM2_0 fullShare (accAt2 V c n hn) ∗ others2 c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare (accAt2 V c (n - 1) (by omega)) ∗ others2 c) ∗ (∃ r, prngReg c r)) := by
  cases n with
  | zero => exact absurd rfl hz
  | succ n => rfl

/-- At any position the invariant gives the resting one back: the accumulator's contents are forgotten. -/
theorem PhiS2_forget (c : Dev nD) (n : ℕ) (h : n ≤ cfg2.N) : PhiS2 V c n h ⊢ Pipeline.ΦA spec2 c := by
  cases n with
  | zero => exact .rfl
  | succ n =>
    rw [PhiS2_succ, PhiA2_eq]
    iintro ⟨⟨HS0, Hoth⟩, Hg⟩
    isplitl [HS0 Hoth]
    · isplitl [HS0]
      · iexists _; iexact HS0
      iexact Hoth
    iexact Hg

/-- The arrays as the region finds them; after the body each input block as it was, the output block at the
    accumulator plus the bias row, rectified; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k0_pay3 (accAt2 V c t.val t.isLt) (bblk2 V c t)
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem PhiS2_castSucc (c : Dev nD) (t : Fin cfg2.N) :
    (dat2 V c).Φ t.castSucc = PhiS2 V c t.val (Nat.le_of_lt t.isLt) := by
  dsimp only [dat2]; simp only [Fin.coe_castSucc]

theorem after2_3 (c : Dev nD) (t : Fin cfg2.N) : (dat2 V c).after 3 t = k0_pay3 (accAt2 V c t.val t.isLt) (bblk2 V c t) := rfl

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) :
    (dat2 V c).leavesExact 0 t = owns (c : Thread nD τ) (ms2_0 t) fullShare (iblk2 V c 0 t) := by
  unfold Dat.leavesExact; rw [liveAt2_0 t]; rfl
theorem leaves2_1 (c : Dev nD) (t : Fin cfg2.N) :
    (dat2 V c).leavesExact 1 t = owns (c : Thread nD τ) (ms2_1 t) fullShare (iblk2 V c 1 t) := by
  unfold Dat.leavesExact; rw [liveAt2_1 t]; rfl
theorem leaves2_2 (c : Dev nD) (t : Fin cfg2.N) :
    (dat2 V c).leavesExact 2 t = owns (c : Thread nD τ) (ms2_2 t) fullShare (iblk2 V c 2 t) := by
  unfold Dat.leavesExact; rw [liveAt2_2 t]; rfl

set_option maxHeartbeats 4800000 in
/-- The body at any point: `t % 5` says which case it is in; the invariant hands the body the accumulator at what the
    point before left (at anything at a first tile) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2
  rw [bodyAt2_eq]
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, PhiS2_castSucc V c t]
  by_cases h0 : t.val % 5 = 0
  · have h1 : ¬t.val % 5 = 4 := by omega
    have hf := PhiS2_forget V c t.val (Nat.le_of_lt t.isLt)
    rw [PhiA2_eq] at hf
    rw [Dat.leavesExact_idle (dat2 V c) 3 t (idleAt2_3 t (fun h => h1 ((hcond2_1 t).mp h))) (noFlush2_3 t (fun h => h1 ((hcond2_1 t).mp h)))]
    rw [accAt2_first V c t h0]
    iintro ⟨HPhi, Ho, ⟨%d0, H0⟩, ⟨%d1, H1⟩, ⟨%d2, H2⟩, ⟨%d3, H3⟩⟩
    ihave H := hf $$ HPhi
    icases H with ⟨⟨HS0, Hoth⟩, Hg⟩
    iapply ((kernelRun_A c (grid2.coords t) _ _ _ _ _ _ _ _ _ _ (gblk2 V c t) (hblk2 V c t) (bblk2 V c t) ((hcond2_0 t).mpr h0) (fun h => h1 ((hcond2_1 t).mp h))).2 _ Set.univ _)
    iframe H0 H1 H2 H3 HS0
    iintro ⟨H0, H1, H2, H3, ⟨%es0, HS0⟩⟩
    iframe Hoth Hg Ho H0 H1 H2
    isplitl [HS0]
    · unfold owns; iexists _; isplitr
      swap; · iexact HS0
      ipureintro; exact acc_A c _ _ _ _ _ _ _ _ _ _ _ _ _ _ _ _ _
    iexists _; iexact H3
  · have hz : t.val ≠ 0 := fun h => h0 (by rw [h])
    rw [PhiS2_pos V c _ _ hz, accAt2_next V c t h0]
    by_cases h1 : t.val % 5 = 4
    · rw [show (dat2 V c).leavesExact 3 t = owns (c : Thread nD τ) (ms2_3 t) fullShare ((dat2 V c).after 3 t) from by
        unfold Dat.leavesExact; rw [liveAt2_3 t ((hcond2_1 t).mpr h1)], after2_3, accAt2_next V c t h0]
      iintro ⟨⟨⟨HS0, Hoth⟩, Hg⟩, Ho, ⟨%d0, H0⟩, ⟨%d1, H1⟩, ⟨%d2, H2⟩, ⟨%d3, H3⟩⟩
      iapply ((kernelRun_C c (grid2.coords t) _ _ _ _ _ _ _ _ _ _ (gblk2 V c t) (hblk2 V c t) (bblk2 V c t) _ (fun h => h0 ((hcond2_0 t).mp h)) ((hcond2_1 t).mpr h1)).2.2 Set.univ _)
      iframe H0 H1 H2 HS0
      isplitl [H3]; · iexists _; iexact H3
      iintro ⟨H0, H1, H2, ⟨%e3, H3⟩, ⟨%es0, HS0⟩⟩
      iframe Hoth Hg Ho H0 H1 H2
      isplitl [HS0]
      · unfold owns; iexists _; isplitr
        swap; · iexact HS0
        ipureintro; exact acc_C c _ _ _ _ _ _ _ _ _ _ _ _ _ _ _ _ _ _
      unfold owns; iexists _; isplitr
      swap; · iexact H3
      ipureintro; exact out_C c _ _ _ _ _ _ _ _ _ _ _ _ _ _ _ _ _ _
    · rw [Dat.leavesExact_idle (dat2 V c) 3 t (idleAt2_3 t (fun h => h1 ((hcond2_1 t).mp h))) (noFlush2_3 t (fun h => h1 ((hcond2_1 t).mp h)))]
      iintro ⟨⟨⟨HS0, Hoth⟩, Hg⟩, Ho, ⟨%d0, H0⟩, ⟨%d1, H1⟩, ⟨%d2, H2⟩, ⟨%d3, H3⟩⟩
      iapply ((kernelRun_B c (grid2.coords t) _ _ _ _ _ _ _ _ _ _ (gblk2 V c t) (hblk2 V c t) (bblk2 V c t) _ (fun h => h0 ((hcond2_0 t).mp h)) (fun h => h1 ((hcond2_1 t).mp h))).2 _ Set.univ _)
      iframe H0 H1 H2 H3 HS0
      iintro ⟨H0, H1, H2, H3, ⟨%es0, HS0⟩⟩
      iframe Hoth Hg Ho H0 H1 H2
      isplitl [HS0]
      · unfold owns; iexists _; isplitr
        swap; · iexact HS0
        ipureintro; exact acc_B c _ _ _ _ _ _ _ _ _ _ _ _ _ _ _ _ _ _
      iexists _; iexact H3

theorem body_obligation2 (c : Dev nD) : BodyObligation (dat2 (F := F) V c) (defs₀ (F := F)) Variants.none () Set.univ := fun t => by
  rw [bigSep_W2, bigSep_W2]
  exact sound_body2 V c t

theorem hout2 (c : Dev nD) : (dat2 V c).Φ (Fin.last cfg2.N) ⊢ Pipeline.ΦA spec2 c :=
  PhiS2_forget V c (Fin.last cfg2.N).val (Nat.le_of_lt_succ (Fin.last cfg2.N).isLt)

end Cert.KernelIdeal.Hand

end
-- ==== Proof.Whole.lean ====
import proofs.«137657_j13134009991420_1_alg».proof.Proof.Body0
import proofs.«137657_j13134009991420_1_alg».proof.Proof.Body1
import proofs.«137657_j13134009991420_1_alg».proof.Proof.Body2
import proofs.«137657_j13134009991420_1_alg».proof.Proof.Gen.KernelIdeal.Regions
import Idealize.ShloMosaic.Lib.Pipeline.FrameSuffix
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The unscoped buffers' contents at the eight boundaries of @main: a host stretch applies its operations, a region
    changes only its arrays. -/
abbrev bnd0 : Dev nD → Valuation τ sig (Elt F) := fun c b => m (c, b)

abbrev bnd1 : Dev nD → Valuation τ sig (Elt F) := fun c => StableHlo.after hostOps0 (bnd0 m c)
abbrev ent0 : (c : Dev nD) → (b : Ref sig .tc) → Buf (Elt F) ((c : Thread nD τ).loc b) := fun c b => bnd1 m c b

def bnd2 (c : Dev nD) : Valuation τ sig (Elt F) :=
  Pipeline.withArrays spec0 c (bnd1 m c) fun w => (dat0 (ent0 m) c).arrAt w cfg0.N
theorem bnd2_arr (c : Dev nD) (w : Fin cfg0.W) :
    bnd2 m c (Proc.devRef .tc (Pipeline.arrRef spec0 w)) = (dat0 (ent0 m) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m c (Proc.devRef .tc b) = bnd1 m c (Proc.devRef .tc b) := by
  unfold bnd2; exact Pipeline.withArrays_of_ne spec0 c _ _ b hb

abbrev ext0 : (c : Dev nD) → (b : Ref sig .tc) → Buf (Elt F) ((c : Thread nD τ).loc b) := fun c b => bnd2 m c b
theorem hF0 (c : Dev nD) (w : Fin cfg0.W) : (dat0 (ent0 m) c).arrAt w cfg0.N = ext0 m c (Pipeline.arrRef spec0 w) :=
  (bnd2_arr m c w).symm
theorem hrest0 (c : Dev nD) : ∀ b, b ∉ Finset.univ.image (Pipeline.arrRef spec0) → ext0 m c b = ent0 m c b :=
  fun b hb => bnd2_of_ne m c b fun w e => hb (Finset.mem_image.mpr ⟨w, Finset.mem_univ _, e⟩)

abbrev bnd3 : Dev nD → Valuation τ sig (Elt F) := fun c => StableHlo.after hostOps1 (bnd2 m c)
abbrev ent1 : (c : Dev nD) → (b : Ref sig .tc) → Buf (Elt F) ((c : Thread nD τ).loc b) := fun c b => bnd3 m c b

def bnd4 (c : Dev nD) : Valuation τ sig (Elt F) :=
  Pipeline.withArrays spec1 c (bnd3 m c) fun w => (dat1 (ent1 m) c).arrAt w cfg1.N
theorem bnd4_arr (c : Dev nD) (w : Fin cfg1.W) :
    bnd4 m c (Proc.devRef .tc (Pipeline.arrRef spec1 w)) = (dat1 (ent1 m) c).arrAt w cfg1.N := by
  unfold bnd4; exact Pipeline.withArrays_arr spec1 launch1.win.arr_inj c _ _ w
theorem bnd4_of_ne (c : Dev nD) (b : Ref sig .tc) (hb : ∀ w, Pipeline.arrRef spec1 w ≠ b) :
    bnd4 m c (Proc.devRef .tc b) = bnd3 m c (Proc.devRef .tc b) := by
  unfold bnd4; exact Pipeline.withArrays_of_ne spec1 c _ _ b hb

abbrev ext1 : (c : Dev nD) → (b : Ref sig .tc) → Buf (Elt F) ((c : Thread nD τ).loc b) := fun c b => bnd4 m c b
theorem hF1 (c : Dev nD) (w : Fin cfg1.W) : (dat1 (ent1 m) c).arrAt w cfg1.N = ext1 m c (Pipeline.arrRef spec1 w) :=
  (bnd4_arr m c w).symm
theorem hrest1 (c : Dev nD) : ∀ b, b ∉ Finset.univ.image (Pipeline.arrRef spec1) → ext1 m c b = ent1 m c b :=
  fun b hb => bnd4_of_ne m c b fun w e => hb (Finset.mem_image.mpr ⟨w, Finset.mem_univ _, e⟩)

abbrev bnd5 : Dev nD → Valuation τ sig (Elt F) := fun c => StableHlo.after hostOps2 (bnd4 m c)
abbrev ent2 : (c : Dev nD) → (b : Ref sig .tc) → Buf (Elt F) ((c : Thread nD τ).loc b) := fun c b => bnd5 m c b

def bnd6 (c : Dev nD) : Valuation τ sig (Elt F) :=
  Pipeline.withArrays spec2 c (bnd5 m c) fun w => (dat2 (ent2 m) c).arrAt w cfg2.N
theorem bnd6_arr (c : Dev nD) (w : Fin cfg2.W) :
    bnd6 m c (Proc.devRef .tc (Pipeline.arrRef spec2 w)) = (dat2 (ent2 m) c).arrAt w cfg2.N := by
  unfold bnd6; exact Pipeline.withArrays_arr spec2 launch2.win.arr_inj c _ _ w
theorem bnd6_of_ne (c : Dev nD) (b : Ref sig .tc) (hb : ∀ w, Pipeline.arrRef spec2 w ≠ b) :
    bnd6 m c (Proc.devRef .tc b) = bnd5 m c (Proc.devRef .tc b) := by
  unfold bnd6; exact Pipeline.withArrays_of_ne spec2 c _ _ b hb

abbrev ext2 : (c : Dev nD) → (b : Ref sig .tc) → Buf (Elt F) ((c : Thread nD τ).loc b) := fun c b => bnd6 m c b
theorem hF2 (c : Dev nD) (w : Fin cfg2.W) : (dat2 (ent2 m) c).arrAt w cfg2.N = ext2 m c (Pipeline.arrRef spec2 w) :=
  (bnd6_arr m c w).symm
theorem hrest2 (c : Dev nD) : ∀ b, b ∉ Finset.univ.image (Pipeline.arrRef spec2) → ext2 m c b = ent2 m c b :=
  fun b hb => bnd6_of_ne m c b fun w e => hb (Finset.mem_image.mpr ⟨w, Finset.mem_univ _, e⟩)

abbrev bnd7 : Dev nD → Valuation τ sig (Elt F) := fun c => StableHlo.after hostOps3 (bnd6 m c)

theorem bnd7_keep (c : Dev nD) (r : Ref sig .tc)
    (h : (r ∉ hostOps0_W ∧ r ∉ hostOps1_W ∧ r ∉ hostOps2_W ∧ r ∉ hostOps3_W)
      ∧ (∀ w, Pipeline.arrRef spec0 w ≠ r) ∧ (∀ w, Pipeline.arrRef spec1 w ≠ r) ∧ (∀ w, Pipeline.arrRef spec2 w ≠ r)) :
    bnd7 m c (Proc.devRef .tc r) = m ((c : Thread nD τ).loc r) :=
  calc bnd7 m c (Proc.devRef .tc r)
    _ = bnd6 m c (Proc.devRef .tc r) := StableHlo.after_of_writes_sub hostOps3 _ hostOps3_writes h.1.2.2.2
    _ = bnd5 m c (Proc.devRef .tc r) := bnd6_of_ne m c r h.2.2.2
    _ = bnd4 m c (Proc.devRef .tc r) := StableHlo.after_of_writes_sub hostOps2 _ hostOps2_writes h.1.2.2.1
    _ = bnd3 m c (Proc.devRef .tc r) := bnd4_of_ne m c r h.2.2.1
    _ = bnd2 m c (Proc.devRef .tc r) := StableHlo.after_of_writes_sub hostOps1 _ hostOps1_writes h.1.2.1
    _ = bnd1 m c (Proc.devRef .tc r) := bnd2_of_ne m c r h.2.1
    _ = bnd0 m c (Proc.devRef .tc r) := StableHlo.after_of_writes_sub hostOps0 _ hostOps0_writes h.1.1
    _ = m ((c : Thread nD τ).loc r) := rfl

theorem bnd7_main_arg2 (c : Dev nD) : bnd7 m c (Proc.devRef .tc main_arg2) = m ((c : Thread nD τ).loc main_arg2) :=
  calc bnd7 m c (Proc.devRef .tc main_arg2)
    _ = bnd6 m c (Proc.devRef .tc main_arg2) := StableHlo.after_of_writes_sub hostOps3 _ hostOps3_writes (by decide)
    _ = bnd5 m c (Proc.devRef .tc main_arg2) := (bnd6_arr m c 0).trans (((dat2 (ent2 m) c).arrAt_in 0 rfl _).trans (A_eq2 (ent2 m) c 0))
    _ = bnd4 m c (Proc.devRef .tc main_arg2) := StableHlo.after_of_writes_sub hostOps2 _ hostOps2_writes (by decide)
    _ = bnd3 m c (Proc.devRef .tc main_arg2) := (bnd4_arr m c 0).trans (((dat1 (ent1 m) c).arrAt_in 0 rfl _).trans (A_eq1 (ent1 m) c 0))
    _ = bnd2 m c (Proc.devRef .tc main_arg2) := StableHlo.after_of_writes_sub hostOps1 _ hostOps1_writes (by decide)
    _ = bnd1 m c (Proc.devRef .tc main_arg2) := (bnd2_arr m c 0).trans (((dat0 (ent0 m) c).arrAt_in 0 rfl _).trans (A_eq0 (ent0 m) c 0))
    _ = bnd0 m c (Proc.devRef .tc main_arg2) := StableHlo.after_of_writes_sub hostOps0 _ hostOps0_writes (by decide)
    _ = m ((c : Thread nD τ).loc main_arg2) := rfl

abbrev adm : (p : Fin 3) → (pcfgs (F := F) p).Adm := fun p => (cfgs p).toPCfg_adm

/-- Every region's proof data, each at its entry contents. -/
def pdats : (p : Fin 3) → (c : Dev nD) → Dat τ (Elt F) Unit ℕ (UR sig nD τ) ℕ (Pipeline.pin (pcfgs (F := F)) adm p) c
  | ⟨0, _⟩ => fun c => dat0 (ent0 m) c
  | ⟨1, _⟩ => fun c => dat1 (ent1 m) c
  | ⟨2, _⟩ => fun c => dat2 (ent2 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (bnd7 m c) ∗ ∃ r, prngReg c r)

set_option backward.isDefEq.respectTransparency.types false in
/-- A region as a segment, entered with the unscoped buffers at `Bi` and left with them at `Bo`, where `Bo` is `Bi` off the
    region's arrays and the proof data's final contents on them, and the proof data owes nothing. -/
def regOf (p : Fin 3) (la : Pipeline.LaunchFacts (nD := nD) (τ := τ) cfgs p) (Bi Bo : Dev nD → Valuation τ sig (Elt F))
    (hb : ∀ c, Pipeline.BodyObligationLoose (pdats m p c) defs₀ 𝒱₀ () Set.univ)
    (hq : ∀ c w, (pdats m p c).q w = fullShare) (ho : ∀ c t, (pdats m p c).owed t = 0) (hrec : ∀ c t, (pdats m p c).recorded t = Set.univ)
    (hA : ∀ c w, (pdats m p c).A w = Bi c (Pipeline.arrRef (pcfgs (F := F) p).spec w))
    (hΦ : ∀ c, (pdats m p c).Φ 0 = Pipeline.ΦA (pcfgs (F := F) p).spec c)
    (hout : ∀ c, (pdats m p c).Φ (Fin.last _) ⊢ Pipeline.ΦA (pcfgs (F := F) p).spec c)
    (hF : ∀ c w, (pdats m p c).arrAt w (Pipeline.pin (pcfgs (F := F)) adm p).N = Bo c (Pipeline.arrRef (pcfgs (F := F) p).spec w))
    (hrest : ∀ c (b : Ref sig .tc), b ∉ Finset.univ.image (Pipeline.arrRef (pcfgs (F := F) p).spec) → Bo c b = Bi c b) :
    Pipeline.RegionSeg (pcfgs (F := F)) adm (pdats m) () defs₀ 𝒱₀ L lv p where
  win := la.win.to₀
  block_pos := la.block_pos
  stage_whole := la.stage_whole
  K := PEmpty
  osem k := k.elim
  ho := Pipeline.OwnSemFacts.none _
  hbody := hb
  hwaits := Pipeline.hwaits_of_owed_zero _ _ _ _ L lv p ho
  pre c := iprop(StableHlo.held (c : Thread nD τ) (Pipeline.ucRefs τ sig) (Bi c) ∗ R c)
  post c := iprop(StableHlo.held (c : Thread nD τ) (Pipeline.ucRefs τ sig) (Bo c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (fun b => Bi c b)
  hentry c := by
    rw [Pipeline.ownSems0_none]
    have hsplit := Pipeline.arrays_of_unscopedBufs (p := p) (pcfgs (F := F)) adm (pdats m) la.win la.arr_whole c
      ((pdats m p c).share_full (hq c)) (fun b => Bi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c]
      icases HO with ⟨%W, HO⟩; iexists W; isplitr; · ipureintro; exact fun _ _ => Or.inl (by rw [hrec c]; exact Set.mem_univ _)
      iexact HO
    isplitl [Hp]; · iexact Hp
    iexact Hrest
  hin c := by
    rw [hΦ c]; unfold Pipeline.ΦA
    iintro ⟨Hp, -, Hr⟩
    isplitl [Hr]; · iexact Hr
    iexact Hp
  hout c := by
    have h := hout c
    unfold Pipeline.ΦA at h
    rw [Pipeline.ownSems0_none]
    iintro HPhi
    ihave H := h $$ HPhi
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c (pdats m) ((pdats m p c).share_full (hq c))
      (fun b => Bi c b) (fun b => Bo c b) ((pdats m p c).arrAt · _) (hF c) (hrest c)
    rw [Pipeline.unscopedBufs_held] at hjoin
    unfold Pipeline.Dat.owesAt Pipeline.owesWithin
    rw [ho c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

abbrev reg0 := regOf m 0 launch0 (bnd1 m) (bnd2 m) (fun c => (body_obligation0 (ent0 m) c).loose) (fun _ _ => rfl) (fun _ _ => rfl) (fun _ _ => rfl) (fun _ _ => rfl)
  (fun _ => rfl) (hout0 (ent0 m)) (hF0 m) (hrest0 m)
abbrev reg1 := regOf m 1 launch1 (bnd3 m) (bnd4 m) (fun c => (body_obligation1 (ent1 m) c).loose) (fun _ _ => rfl) (fun _ _ => rfl) (fun _ _ => rfl) (fun _ _ => rfl)
  (fun _ => rfl) (hout1 (ent1 m)) (hF1 m) (hrest1 m)
abbrev reg2 := regOf m 2 launch2 (bnd5 m) (bnd6 m) (fun c => (body_obligation2 (ent2 m) c).loose) (fun _ _ => rfl) (fun _ _ => rfl) (fun _ _ => rfl) (fun _ _ => rfl)
  (fun _ => rfl) (hout2 (ent2 m)) (hF2 m) (hrest2 m)

abbrev segs : List (Pipeline.Seg (pcfgs (F := F)) adm (pdats m) () defs₀ 𝒱₀ L lv) :=
  [ .host (hseg hostOps0 hostOps0_sub hostOps0_fresh (bnd0 m)),
    .region (reg0 m),
    .host (hseg hostOps1 hostOps1_sub hostOps1_fresh (bnd2 m)),
    .region (reg1 m),
    .host (hseg hostOps2 hostOps2_sub hostOps2_fresh (bnd4 m)),
    .region (reg2 m),
    .host (hseg hostOps3 hostOps3_sub hostOps3_fresh (bnd6 m)) ]

theorem main_run (c : Dev nD) : main (F := F) c = Pipeline.Seg.run (segs m) := (main_chain c).trans (by chain_rfl)

set_option backward.isDefEq.respectTransparency.types false in

/-- Every weakly fair execution of @main ends with every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = bnd7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (bnd7 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (bnd0 m c)
        from Pipeline.unscopedBufs_held c (bnd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd7 m c b)
    (hfin := fun c s' => by
      iintro ⟨⟨Hh, -⟩, HSI⟩
      unfold StableHlo.held
      imodintro
      iapply (pointsTo_read_all (Pipeline.ucRefs τ sig) (fun b => (((c : Thread nD τ)).1, b)) (bnd7 m c) s')
      isplitl [Hh] <;> iassumption)
    (hQ := fun s h c => h c)

/-- Every argument array is as launched. -/
abbrev Kept (mem : (ℓ : Loc nD τ sig) → Buf (Elt F) ℓ) (c : Dev nD) : Prop :=
  mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)

theorem kept (c : Dev nD) (mem : (ℓ : Loc nD τ sig) → Buf (Elt F) ℓ)
    (h : ∀ b ∈ Pipeline.ucRefs τ sig, mem (((c : Thread nD τ)).1, b) = bnd7 m c b) : Kept m mem c :=
  have k (r : Ref sig .tc) (hu : ¬ (Proc.devRef .tc r : DevRef τ sig).isScoped) hk := (h _ (mem_uc r hu)).trans (bnd7_keep m c r hk)
  ⟨k main_arg0 (by decide) (by decide), k main_arg1 (by decide) (by decide), (h _ (mem_uc main_arg2 (by decide))).trans (bnd7_main_arg2 m c),
   k main_arg3 (by decide) (by decide), k main_arg4 (by decide) (by decide), k main_arg5 (by decide) (by decide), k main_arg6 (by decide) (by decide)⟩

theorem frame : θ_run defs (onTc (τ := τ) (main (F := F))) ⟨m, fun _ => 0, ρ⟩ (fun r => ∀ c : Dev nD, Kept m r.2.mem c) :=
  (θ_run defs _ _).mono (fun r h c => kept m c r.2.mem (h c)) (run_main m ρ)

end Cert.KernelIdeal.Hand

end
-- ==== Proof.Bits.Cases.lean ====
import proofs.«137657_j13134009991420_1_alg».proof.Proof.Gen.Kernel.Launch
import proofs.«137657_j13134009991420_1_alg».proof.Proof.Gen.Kernel.Skeleton
import proofs.«137657_j13134009991420_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contraction tile is the first. -/
abbrev cond_0 (i : grid0.Coords) : Prop :=
  (Scalar.cmpi .ne (Scalar.extui (Scalar.cmpi .eq (BitVec.ofNat 32 (i 1).val) 0#32)) 0#32) = 1#1
/-- The contraction tile is the last. -/
abbrev cond_1 (i : grid0.Coords) : Prop := k0_cond2 i = 1#1

theorem hz_S800x64 : (![0, 0] : Fin S800x64.rank → ℕ) = fun _ => 0 := by
  funext a; match a with | ⟨0, _⟩ => rfl | ⟨1, _⟩ => rfl
theorem hz_S800x3200 : (![0, 0] : Fin S800x3200.rank → ℕ) = fun _ => 0 := by
  funext a; match a with | ⟨0, _⟩ => rfl | ⟨1, _⟩ => rfl
theorem hz_S3200x64 : (![0, 0] : Fin S3200x64.rank → ℕ) = fun _ => 0 := by
  funext a; match a with | ⟨0, _⟩ => rfl | ⟨1, _⟩ => rfl
theorem hz_S1x64 : (![0, 0] : Fin S1x64.rank → ℕ) = fun _ => 0 := by
  funext a; match a with | ⟨0, _⟩ => rfl | ⟨1, _⟩ => rfl

variable (c : Dev nD) (i : grid0.Coords) (arg2 : Memref sig .tc .vmem S800x3200 .f32) (harg2 : arg2.IsWhole)
  (arg3 : Memref sig .tc .vmem S3200x64 .f32) (harg3 : arg3.IsWhole) (arg4 : Memref sig .tc .vmem S1x64 .f32) (harg4 : arg4.IsWhole)
  (arg5 : Memref sig .tc .vmem S800x64 .f32) (harg5 : arg5.IsWhole) (arg6 : Memref sig .tc .vmem S800x64 .f32) (harg6 : arg6.IsWhole)
  (x0 : Vec F S800x3200 .f32) (x1 : Vec F S3200x64 .f32) (x2 : Vec F S1x64 .f32) (xs0 : Vec F S800x64 .f32)

set_option maxHeartbeats 1000000 in
/-- First tile of a row tile: the accumulator enters at anything and leaves with the run's stores. -/
noncomputable def kernelRun_A (hc0 : cond_0 i) (hc1 : ¬cond_1 i) :
    { LS0 : List (View.Piece (Elt F) S800x64 .f32) //
      ∀ (xi3 : Vec F S800x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__spmm_relu_kernel i arg2 harg2 arg3 harg3 arg4 harg4 arg5 harg5 arg6 harg6) K } := by
  refine ⟨?_, fun xi3 E K => ?run⟩
  case run =>
    simp only [cc0__spmm_relu_kernel_eq_skeleton]; unfold cc0__spmm_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- A middle tile: the accumulator enters at `xs0`. -/
noncomputable def kernelRun_B (hc0 : ¬cond_0 i) (hc1 : ¬cond_1 i) :
    { LS0 : List (View.Piece (Elt F) S800x64 .f32) //
      ∀ (xi3 : Vec F S800x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__spmm_relu_kernel i arg2 harg2 arg3 harg3 arg4 harg4 arg5 harg5 arg6 harg6) K } := by
  refine ⟨?_, fun xi3 E K => ?run⟩
  case run =>
    simp only [cc0__spmm_relu_kernel_eq_skeleton]; unfold cc0__spmm_relu_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- The last tile: the output block enters at anything; both leave with the run's stores. -/
noncomputable def kernelRun_C (hc0 : ¬cond_0 i) (hc1 : cond_1 i) :
    Σ' (L3 : List (View.Piece (Elt F) S800x64 .f32)), { LS0 : List (View.Piece (Elt F) S800x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__spmm_relu_kernel i arg2 harg2 arg3 harg3 arg4 harg4 arg5 harg5 arg6 harg6) K } := by
  refine ⟨?_, ?_, fun E K => ?run⟩
  case run =>
    simp only [cc0__spmm_relu_kernel_eq_skeleton]; unfold cc0__spmm_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-- After the first tile the accumulator holds the tile's partial product added to zero. -/
theorem acc_A (hc0 : cond_0 i) (hc1 : ¬cond_1 i) {v : View sig .tc .vmem S800x64 .f32} (f : v.ty.Contents (Elt F)) :
    v.read (Elt F) (v.writes (Elt F) f (kernelRun_A c i arg2 harg2 arg3 harg3 arg4 harg4 arg5 harg5 arg6 harg6 x0 x1 x2 hc0 hc1).1) = k0_pay2 x0 x1 (k0_pay1 (F := F)) := by
  rw [View.read_writes_eq_canon _ _ _ (View.cover_of_tiledL _ S800x64.size (by sl_kernel_rfl))]
  unfold kernelRun_A
  dsimp only
  sl_unfold_words
  rw [View.canon_cons_unit_zero (S := S800x64) hz_S800x64]
  simp only [View.readCov_unit_zero (S := S800x64) _ hz_S800x64, View.readAt_eq_ld, harg2.read_unread, harg3.read_unread,
    View.ld_unit_zero (S := S800x3200) hz_S800x3200, View.ld_unit_zero (S := S3200x64) hz_S3200x64]

/-- After a middle tile: the partial product added to what was there. -/
theorem acc_B (hc0 : ¬cond_0 i) (hc1 : ¬cond_1 i) {v : View sig .tc .vmem S800x64 .f32} (f : v.ty.Contents (Elt F)) :
    v.read (Elt F) (v.writes (Elt F) f (kernelRun_B c i arg2 harg2 arg3 harg3 arg4 harg4 arg5 harg5 arg6 harg6 x0 x1 x2 xs0 hc0 hc1).1) = k0_pay2 x0 x1 xs0 := by
  rw [View.read_writes_eq_canon _ _ _ (View.cover_of_tiledL _ S800x64.size (by sl_kernel_rfl))]
  unfold kernelRun_B
  dsimp only
  sl_unfold_words
  rw [View.canon_unit_zero (S := S800x64) hz_S800x64]
  simp only [View.readAt_eq_ld, harg2.read_unread, harg3.read_unread, harg6.read_unread,
    View.ld_unit_zero (S := S800x3200) hz_S800x3200, View.ld_unit_zero (S := S3200x64) hz_S3200x64, View.ld_unit_zero (S := S800x64) hz_S800x64]

/-- After the last tile the accumulator is as after a middle one, -/
theorem acc_C (hc0 : ¬cond_0 i) (hc1 : cond_1 i) {v : View sig .tc .vmem S800x64 .f32} (f : v.ty.Contents (Elt F)) :
    v.read (Elt F) (v.writes (Elt F) f (kernelRun_C c i arg2 harg2 arg3 harg3 arg4 harg4 arg5 harg5 arg6 harg6 x0 x1 x2 xs0 hc0 hc1).2.1) = k0_pay2 x0 x1 xs0 := by
  rw [View.read_writes_eq_canon _ _ _ (View.cover_of_tiledL _ S800x64.size (by sl_kernel_rfl))]
  unfold kernelRun_C
  dsimp only
  sl_unfold_words
  rw [View.canon_unit_zero (S := S800x64) hz_S800x64]
  simp only [View.readAt_eq_ld, harg2.read_unread, harg3.read_unread, harg6.read_unread,
    View.ld_unit_zero (S := S800x3200) hz_S800x3200, View.ld_unit_zero (S := S3200x64) hz_S3200x64, View.ld_unit_zero (S := S800x64) hz_S800x64]

/-- and the output block holds it plus the bias row, rectified. -/
theorem out_C (hc0 : ¬cond_0 i) (hc1 : cond_1 i) {v : View sig .tc .vmem S800x64 .f32} (f : v.ty.Contents (Elt F)) :
    v.read (Elt F) (v.writes (Elt F) f (kernelRun_C c i arg2 harg2 arg3 harg3 arg4 harg4 arg5 harg5 arg6 harg6 x0 x1 x2 xs0 hc0 hc1).1) = k0_pay3 (k0_pay2 x0 x1 xs0) x2 := by
  rw [View.read_writes_eq_canon _ _ _ (View.cover_of_tiledL _ S800x64.size (by sl_kernel_rfl))]
  unfold kernelRun_C
  dsimp only
  sl_unfold_words
  rw [View.canon_unit_zero (S := S800x64) hz_S800x64]
  simp only [View.readCov_unit_zero (S := S800x64) _ hz_S800x64, View.readAt_eq_ld, harg2.read_unread, harg3.read_unread, harg4.read_unread, harg6.read_unread,
    View.ld_unit_zero (S := S800x3200) hz_S800x3200, View.ld_unit_zero (S := S3200x64) hz_S3200x64, View.ld_unit_zero (S := S800x64) hz_S800x64, View.ld_unit_zero (S := S1x64) hz_S1x64]

end Cert.Kernel.Hand

end
-- ==== Proof.Bits.Sched0.lean ====
import proofs.«137657_j13134009991420_1_alg».proof.Proof.Bits.Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

theorem hcond0_0 : ∀ t : Fin cfg0.N, cond_0 (grid0.coords t) ↔ t.val % 5 = 0 :=
  (by decide +kernel : ∀ t : Fin grid0.N, cond_0 (grid0.coords t) ↔ t.val % 5 = 0)
theorem hcond0_1 : ∀ t : Fin cfg0.N, cond_1 (grid0.coords t) ↔ t.val % 5 = 4 :=
  (by decide +kernel : ∀ t : Fin grid0.N, cond_1 (grid0.coords t) ↔ t.val % 5 = 4)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Only the last contraction tile of a row tile touches the output block. -/
theorem idleAt0_3 : ∀ t : Fin cfg0.N, ¬cond_1 (grid0.coords t) → cfg0.idle 3 (grid0.coords t) = true := by decide +kernel
theorem noFlush0_3 : ∀ t : Fin cfg0.N, ¬cond_1 (grid0.coords t) → (cfg0.win 3).flush t = false := by decide +kernel
theorem liveAt0_3 : ∀ t : Fin cfg0.N, cond_1 (grid0.coords t) → cfg0.idle 3 (grid0.coords t) = false := by decide +kernel

abbrev ms0_0 (t : Fin cfg0.N) : Memref sig .tc .vmem S800x3200 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3200x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S800x64 .f32 := win0_3.stage (cfg0.slots t 3)
abbrev hs0_3 (t : Fin cfg0.N) : (ms0_3 t).IsWhole := hstage0_3 ((cfg0.slots t 3).cast nbuf0_3)
/-- The accumulator: one row tile of partial sums, kept across the five contraction tiles. -/
abbrev scM0_0 : Memref sig .tc .vmem S800x64 .f32 := Memref.whole cc0_scratch0

theorem bodyAt0_eq (t : Fin cfg0.N) : bodyAt0 (F := F) t
    = cc0__spmm_relu_kernel (grid0.coords t) (ms0_0 t) (hs0_0 t) (ms0_1 t) (hs0_1 t) (ms0_2 t) (hs0_2 t) (ms0_3 t) (hs0_3 t) scM0_0 (Memref.isWhole_whole _) := rfl

abbrev others0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA
  rw [Pipeline.scopedRest_split_of_list spec0 c [cc0_scratch0] (by decide) (by decide)]
  simp only [scM0_0, owns_whole, bigSepL]
  rfl

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
abbrev gblk0 (c : Dev nD) (t : Fin cfg0.N) : Vec F S800x3200 .f32 := iblk0 V c 0 t
abbrev hblk0 (c : Dev nD) (t : Fin cfg0.N) : Vec F S3200x64 .f32 := iblk0 V c 1 t
abbrev bblk0 (c : Dev nD) (t : Fin cfg0.N) : Vec F S1x64 .f32 := iblk0 V c 2 t

end Cert.Kernel.Hand

end
-- ==== Proof.Bits.Body0.lean ====
import proofs.«137657_j13134009991420_1_alg».proof.Proof.Bits.Sched0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- The accumulator after position `n`: the tile's partial product added to zero at a first tile, else to what the
    position before left. -/
def accAt0 (c : Dev nD) : (n : ℕ) → n < cfg0.N → Vec F S800x64 .f32
  | 0, hn => k0_pay2 (gblk0 V c ⟨0, hn⟩) (hblk0 V c ⟨0, hn⟩) (k0_pay1 (F := F))
  | n + 1, hn => k0_pay2 (gblk0 V c ⟨n + 1, hn⟩) (hblk0 V c ⟨n + 1, hn⟩)
      (if (n + 1) % 5 = 0 then k0_pay1 (F := F) else accAt0 c n (Nat.lt_of_succ_lt hn))

theorem accAt0_first (c : Dev nD) (t : Fin cfg0.N) (h0 : t.val % 5 = 0) :
    accAt0 V c t.val t.isLt = k0_pay2 (gblk0 V c t) (hblk0 V c t) (k0_pay1 (F := F)) := by
  obtain ⟨n, hn⟩ := t
  cases n with
  | zero => rfl
  | succ n => exact congrArg (k0_pay2 _ _) (if_pos h0)

theorem accAt0_next (c : Dev nD) (t : Fin cfg0.N) (h0 : ¬t.val % 5 = 0) :
    accAt0 V c t.val t.isLt = k0_pay2 (gblk0 V c t) (hblk0 V c t) (accAt0 V c (t.val - 1) (Nat.lt_of_le_of_lt (Nat.sub_le _ _) t.isLt)) := by
  obtain ⟨n, hn⟩ := t
  cases n with
  | zero => exact absurd (Nat.zero_mod _) h0
  | succ n => exact congrArg (k0_pay2 _ _) (if_neg h0)

/-- Before position `n`: at the region's entry the resting invariant; afterwards the accumulator at what the position
    before left. -/
def PhiS0 (c : Dev nD) : (n : ℕ) → n ≤ cfg0.N → sProp 𝕄
  | 0, _ => Pipeline.ΦA spec0 c
  | n + 1, hn => iprop(iprop(owns (c : Thread nD τ) scM0_0 fullShare (accAt0 V c n hn) ∗ others0 c) ∗ (∃ r, prngReg c r))

theorem PhiS0_succ (c : Dev nD) (n : ℕ) (hn : n < cfg0.N) :
    PhiS0 V c (n + 1) hn = iprop(iprop(owns (c : Thread nD τ) scM0_0 fullShare (accAt0 V c n hn) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (accAt0 V c (n - 1) (by omega)) ∗ others0 c) ∗ (∃ r, prngReg c r)) := by
  cases n with
  | zero => exact absurd rfl hz
  | succ n => rfl

/-- At any position the invariant gives the resting one back: the accumulator's contents are forgotten. -/
theorem PhiS0_forget (c : Dev nD) (n : ℕ) (h : n ≤ cfg0.N) : PhiS0 V c n h ⊢ Pipeline.ΦA spec0 c := by
  cases n with
  | zero => exact .rfl
  | succ n =>
    rw [PhiS0_succ, PhiA0_eq]
    iintro ⟨⟨HS0, Hoth⟩, Hg⟩
    isplitl [HS0 Hoth]
    · isplitl [HS0]
      · iexists _; iexact HS0
      iexact Hoth
    iexact Hg

/-- The arrays as the region finds them; after the body each input block as it was, the output block at the
    accumulator plus the bias row, rectified; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAt0 V c t.val t.isLt) (bblk0 V c t)
  Φ t := PhiS0 V c t.val (Nat.le_of_lt_succ t.isLt)
  q _ := fullShare
  owed _ := 0

theorem A_eq0 (c : Dev nD) (w : Fin cfg0.W) : (dat0 V c).A w = V c (Pipeline.arrRef spec0 w) := rfl

theorem PhiS0_castSucc (c : Dev nD) (t : Fin cfg0.N) :
    (dat0 V c).Φ t.castSucc = PhiS0 V c t.val (Nat.le_of_lt t.isLt) := by
  dsimp only [dat0]; simp only [Fin.coe_castSucc]

theorem after0_3 (c : Dev nD) (t : Fin cfg0.N) : (dat0 V c).after 3 t = k0_pay3 (accAt0 V c t.val t.isLt) (bblk0 V c t) := rfl

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) :
    (dat0 V c).leavesExact 0 t = owns (c : Thread nD τ) (ms0_0 t) fullShare (iblk0 V c 0 t) := by
  unfold Dat.leavesExact; rw [liveAt0_0 t]; rfl
theorem leaves0_1 (c : Dev nD) (t : Fin cfg0.N) :
    (dat0 V c).leavesExact 1 t = owns (c : Thread nD τ) (ms0_1 t) fullShare (iblk0 V c 1 t) := by
  unfold Dat.leavesExact; rw [liveAt0_1 t]; rfl
theorem leaves0_2 (c : Dev nD) (t : Fin cfg0.N) :
    (dat0 V c).leavesExact 2 t = owns (c : Thread nD τ) (ms0_2 t) fullShare (iblk0 V c 2 t) := by
  unfold Dat.leavesExact; rw [liveAt0_2 t]; rfl

set_option maxHeartbeats 4800000 in
/-- The body at any point: `t % 5` says which case it is in; the invariant hands the body the accumulator at what the
    point before left (at anything at a first tile) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  rw [bodyAt0_eq]
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, PhiS0_castSucc V c t]
  by_cases h0 : t.val % 5 = 0
  · have h1 : ¬t.val % 5 = 4 := by omega
    have hf := PhiS0_forget V c t.val (Nat.le_of_lt t.isLt)
    rw [PhiA0_eq] at hf
    rw [Dat.leavesExact_idle (dat0 V c) 3 t (idleAt0_3 t (fun h => h1 ((hcond0_1 t).mp h))) (noFlush0_3 t (fun h => h1 ((hcond0_1 t).mp h)))]
    rw [accAt0_first V c t h0]
    iintro ⟨HPhi, Ho, ⟨%d0, H0⟩, ⟨%d1, H1⟩, ⟨%d2, H2⟩, ⟨%d3, H3⟩⟩
    ihave H := hf $$ HPhi
    icases H with ⟨⟨HS0, Hoth⟩, Hg⟩
    iapply ((kernelRun_A c (grid0.coords t) _ _ _ _ _ _ _ _ _ _ (gblk0 V c t) (hblk0 V c t) (bblk0 V c t) ((hcond0_0 t).mpr h0) (fun h => h1 ((hcond0_1 t).mp h))).2 _ Set.univ _)
    iframe H0 H1 H2 H3 HS0
    iintro ⟨H0, H1, H2, H3, ⟨%es0, HS0⟩⟩
    iframe Hoth Hg Ho H0 H1 H2
    isplitl [HS0]
    · unfold owns; iexists _; isplitr
      swap; · iexact HS0
      ipureintro; exact acc_A c _ _ _ _ _ _ _ _ _ _ _ _ _ _ _ _ _
    iexists _; iexact H3
  · have hz : t.val ≠ 0 := fun h => h0 (by rw [h])
    rw [PhiS0_pos V c _ _ hz, accAt0_next V c t h0]
    by_cases h1 : t.val % 5 = 4
    · rw [show (dat0 V c).leavesExact 3 t = owns (c : Thread nD τ) (ms0_3 t) fullShare ((dat0 V c).after 3 t) from by
        unfold Dat.leavesExact; rw [liveAt0_3 t ((hcond0_1 t).mpr h1)], after0_3, accAt0_next V c t h0]
      iintro ⟨⟨⟨HS0, Hoth⟩, Hg⟩, Ho, ⟨%d0, H0⟩, ⟨%d1, H1⟩, ⟨%d2, H2⟩, ⟨%d3, H3⟩⟩
      iapply ((kernelRun_C c (grid0.coords t) _ _ _ _ _ _ _ _ _ _ (gblk0 V c t) (hblk0 V c t) (bblk0 V c t) _ (fun h => h0 ((hcond0_0 t).mp h)) ((hcond0_1 t).mpr h1)).2.2 Set.univ _)
      iframe H0 H1 H2 HS0
      isplitl [H3]; · iexists _; iexact H3
      iintro ⟨H0, H1, H2, ⟨%e3, H3⟩, ⟨%es0, HS0⟩⟩
      iframe Hoth Hg Ho H0 H1 H2
      isplitl [HS0]
      · unfold owns; iexists _; isplitr
        swap; · iexact HS0
        ipureintro; exact acc_C c _ _ _ _ _ _ _ _ _ _ _ _ _ _ _ _ _ _
      unfold owns; iexists _; isplitr
      swap; · iexact H3
      ipureintro; exact out_C c _ _ _ _ _ _ _ _ _ _ _ _ _ _ _ _ _ _
    · rw [Dat.leavesExact_idle (dat0 V c) 3 t (idleAt0_3 t (fun h => h1 ((hcond0_1 t).mp h))) (noFlush0_3 t (fun h => h1 ((hcond0_1 t).mp h)))]
      iintro ⟨⟨⟨HS0, Hoth⟩, Hg⟩, Ho, ⟨%d0, H0⟩, ⟨%d1, H1⟩, ⟨%d2, H2⟩, ⟨%d3, H3⟩⟩
      iapply ((kernelRun_B c (grid0.coords t) _ _ _ _ _ _ _ _ _ _ (gblk0 V c t) (hblk0 V c t) (bblk0 V c t) _ (fun h => h0 ((hcond0_0 t).mp h)) (fun h => h1 ((hcond0_1 t).mp h))).2 _ Set.univ _)
      iframe H0 H1 H2 H3 HS0
      iintro ⟨H0, H1, H2, H3, ⟨%es0, HS0⟩⟩
      iframe Hoth Hg Ho H0 H1 H2
      isplitl [HS0]
      · unfold owns; iexists _; isplitr
        swap; · iexact HS0
        ipureintro; exact acc_B c _ _ _ _ _ _ _ _ _ _ _ _ _ _ _ _ _ _
      iexists _; iexact H3

theorem body_obligation0 (c : Dev nD) : BodyObligation (dat0 (F := F) V c) (defs₀ (F := F)) Variants.none () Set.univ := fun t => by
  rw [bigSep_W0, bigSep_W0]
  exact sound_body0 V c t

theorem hout0 (c : Dev nD) : (dat0 V c).Φ (Fin.last cfg0.N) ⊢ Pipeline.ΦA spec0 c :=
  PhiS0_forget V c (Fin.last cfg0.N).val (Nat.le_of_lt_succ (Fin.last cfg0.N).isLt)

end Cert.Kernel.Hand

end
-- ==== Proof.Bits.Sched1.lean ====
import proofs.«137657_j13134009991420_1_alg».proof.Proof.Bits.Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

theorem hcond1_0 : ∀ t : Fin cfg1.N, cond_0 (grid1.coords t) ↔ t.val % 5 = 0 :=
  (by decide +kernel : ∀ t : Fin grid1.N, cond_0 (grid1.coords t) ↔ t.val % 5 = 0)
theorem hcond1_1 : ∀ t : Fin cfg1.N, cond_1 (grid1.coords t) ↔ t.val % 5 = 4 :=
  (by decide +kernel : ∀ t : Fin grid1.N, cond_1 (grid1.coords t) ↔ t.val % 5 = 4)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Only the last contraction tile of a row tile touches the output block. -/
theorem idleAt1_3 : ∀ t : Fin cfg1.N, ¬cond_1 (grid1.coords t) → cfg1.idle 3 (grid1.coords t) = true := by decide +kernel
theorem noFlush1_3 : ∀ t : Fin cfg1.N, ¬cond_1 (grid1.coords t) → (cfg1.win 3).flush t = false := by decide +kernel
theorem liveAt1_3 : ∀ t : Fin cfg1.N, cond_1 (grid1.coords t) → cfg1.idle 3 (grid1.coords t) = false := by decide +kernel

abbrev ms1_0 (t : Fin cfg1.N) : Memref sig .tc .vmem S800x3200 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3200x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S800x64 .f32 := win1_3.stage (cfg1.slots t 3)
abbrev hs1_3 (t : Fin cfg1.N) : (ms1_3 t).IsWhole := hstage1_3 ((cfg1.slots t 3).cast nbuf1_3)
/-- The accumulator: one row tile of partial sums, kept across the five contraction tiles. -/
abbrev scM1_0 : Memref sig .tc .vmem S800x64 .f32 := Memref.whole cc1_scratch0

theorem bodyAt1_eq (t : Fin cfg1.N) : bodyAt1 (F := F) t
    = cc0__spmm_relu_kernel (grid1.coords t) (ms1_0 t) (hs1_0 t) (ms1_1 t) (hs1_1 t) (ms1_2 t) (hs1_2 t) (ms1_3 t) (hs1_3 t) scM1_0 (Memref.isWhole_whole _) := rfl

abbrev others1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA
  rw [Pipeline.scopedRest_split_of_list spec1 c [cc1_scratch0] (by decide) (by decide)]
  simp only [scM1_0, owns_whole, bigSepL]
  rfl

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
abbrev gblk1 (c : Dev nD) (t : Fin cfg1.N) : Vec F S800x3200 .f32 := iblk1 V c 0 t
abbrev hblk1 (c : Dev nD) (t : Fin cfg1.N) : Vec F S3200x64 .f32 := iblk1 V c 1 t
abbrev bblk1 (c : Dev nD) (t : Fin cfg1.N) : Vec F S1x64 .f32 := iblk1 V c 2 t

end Cert.Kernel.Hand

end
-- ==== Proof.Bits.Body1.lean ====
import proofs.«137657_j13134009991420_1_alg».proof.Proof.Bits.Sched1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- The accumulator after position `n`: the tile's partial product added to zero at a first tile, else to what the
    position before left. -/
def accAt1 (c : Dev nD) : (n : ℕ) → n < cfg1.N → Vec F S800x64 .f32
  | 0, hn => k0_pay2 (gblk1 V c ⟨0, hn⟩) (hblk1 V c ⟨0, hn⟩) (k0_pay1 (F := F))
  | n + 1, hn => k0_pay2 (gblk1 V c ⟨n + 1, hn⟩) (hblk1 V c ⟨n + 1, hn⟩)
      (if (n + 1) % 5 = 0 then k0_pay1 (F := F) else accAt1 c n (Nat.lt_of_succ_lt hn))

theorem accAt1_first (c : Dev nD) (t : Fin cfg1.N) (h0 : t.val % 5 = 0) :
    accAt1 V c t.val t.isLt = k0_pay2 (gblk1 V c t) (hblk1 V c t) (k0_pay1 (F := F)) := by
  obtain ⟨n, hn⟩ := t
  cases n with
  | zero => rfl
  | succ n => exact congrArg (k0_pay2 _ _) (if_pos h0)

theorem accAt1_next (c : Dev nD) (t : Fin cfg1.N) (h0 : ¬t.val % 5 = 0) :
    accAt1 V c t.val t.isLt = k0_pay2 (gblk1 V c t) (hblk1 V c t) (accAt1 V c (t.val - 1) (Nat.lt_of_le_of_lt (Nat.sub_le _ _) t.isLt)) := by
  obtain ⟨n, hn⟩ := t
  cases n with
  | zero => exact absurd (Nat.zero_mod _) h0
  | succ n => exact congrArg (k0_pay2 _ _) (if_neg h0)

/-- Before position `n`: at the region's entry the resting invariant; afterwards the accumulator at what the position
    before left. -/
def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ others1 c) ∗ (∃ r, prngReg c r))

theorem PhiS1_succ (c : Dev nD) (n : ℕ) (hn : n < cfg1.N) :
    PhiS1 V c (n + 1) hn = iprop(iprop(owns (c : Thread nD τ) scM1_0 fullShare (accAt1 V c n hn) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (accAt1 V c (n - 1) (by omega)) ∗ others1 c) ∗ (∃ r, prngReg c r)) := by
  cases n with
  | zero => exact absurd rfl hz
  | succ n => rfl

/-- At any position the invariant gives the resting one back: the accumulator's contents are forgotten. -/
theorem PhiS1_forget (c : Dev nD) (n : ℕ) (h : n ≤ cfg1.N) : PhiS1 V c n h ⊢ Pipeline.ΦA spec1 c := by
  cases n with
  | zero => exact .rfl
  | succ n =>
    rw [PhiS1_succ, PhiA1_eq]
    iintro ⟨⟨HS0, Hoth⟩, Hg⟩
    isplitl [HS0 Hoth]
    · isplitl [HS0]
      · iexists _; iexact HS0
      iexact Hoth
    iexact Hg

/-- The arrays as the region finds them; after the body each input block as it was, the output block at the
    accumulator plus the bias row, rectified; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k0_pay3 (accAt1 V c t.val t.isLt) (bblk1 V c t)
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_3 (c : Dev nD) (t : Fin cfg1.N) : (dat1 V c).after 3 t = k0_pay3 (accAt1 V c t.val t.isLt) (bblk1 V c t) := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (ms1_0 t) fullShare (iblk1 V c 0 t) := by
  unfold Dat.leavesExact; rw [liveAt1_0 t]; rfl
theorem leaves1_1 (c : Dev nD) (t : Fin cfg1.N) :
    (dat1 V c).leavesExact 1 t = owns (c : Thread nD τ) (ms1_1 t) fullShare (iblk1 V c 1 t) := by
  unfold Dat.leavesExact; rw [liveAt1_1 t]; rfl
theorem leaves1_2 (c : Dev nD) (t : Fin cfg1.N) :
    (dat1 V c).leavesExact 2 t = owns (c : Thread nD τ) (ms1_2 t) fullShare (iblk1 V c 2 t) := by
  unfold Dat.leavesExact; rw [liveAt1_2 t]; rfl

set_option maxHeartbeats 4800000 in
/-- The body at any point: `t % 5` says which case it is in; the invariant hands the body the accumulator at what the
    point before left (at anything at a first tile) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  rw [bodyAt1_eq]
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, PhiS1_castSucc V c t]
  by_cases h0 : t.val % 5 = 0
  · have h1 : ¬t.val % 5 = 4 := by omega
    have hf := PhiS1_forget V c t.val (Nat.le_of_lt t.isLt)
    rw [PhiA1_eq] at hf
    rw [Dat.leavesExact_idle (dat1 V c) 3 t (idleAt1_3 t (fun h => h1 ((hcond1_1 t).mp h))) (noFlush1_3 t (fun h => h1 ((hcond1_1 t).mp h)))]
    rw [accAt1_first V c t h0]
    iintro ⟨HPhi, Ho, ⟨%d0, H0⟩, ⟨%d1, H1⟩, ⟨%d2, H2⟩, ⟨%d3, H3⟩⟩
    ihave H := hf $$ HPhi
    icases H with ⟨⟨HS0, Hoth⟩, Hg⟩
    iapply ((kernelRun_A c (grid1.coords t) _ _ _ _ _ _ _ _ _ _ (gblk1 V c t) (hblk1 V c t) (bblk1 V c t) ((hcond1_0 t).mpr h0) (fun h => h1 ((hcond1_1 t).mp h))).2 _ Set.univ _)
    iframe H0 H1 H2 H3 HS0
    iintro ⟨H0, H1, H2, H3, ⟨%es0, HS0⟩⟩
    iframe Hoth Hg Ho H0 H1 H2
    isplitl [HS0]
    · unfold owns; iexists _; isplitr
      swap; · iexact HS0
      ipureintro; exact acc_A c _ _ _ _ _ _ _ _ _ _ _ _ _ _ _ _ _
    iexists _; iexact H3
  · have hz : t.val ≠ 0 := fun h => h0 (by rw [h])
    rw [PhiS1_pos V c _ _ hz, accAt1_next V c t h0]
    by_cases h1 : t.val % 5 = 4
    · rw [show (dat1 V c).leavesExact 3 t = owns (c : Thread nD τ) (ms1_3 t) fullShare ((dat1 V c).after 3 t) from by
        unfold Dat.leavesExact; rw [liveAt1_3 t ((hcond1_1 t).mpr h1)], after1_3, accAt1_next V c t h0]
      iintro ⟨⟨⟨HS0, Hoth⟩, Hg⟩, Ho, ⟨%d0, H0⟩, ⟨%d1, H1⟩, ⟨%d2, H2⟩, ⟨%d3, H3⟩⟩
      iapply ((kernelRun_C c (grid1.coords t) _ _ _ _ _ _ _ _ _ _ (gblk1 V c t) (hblk1 V c t) (bblk1 V c t) _ (fun h => h0 ((hcond1_0 t).mp h)) ((hcond1_1 t).mpr h1)).2.2 Set.univ _)
      iframe H0 H1 H2 HS0
      isplitl [H3]; · iexists _; iexact H3
      iintro ⟨H0, H1, H2, ⟨%e3, H3⟩, ⟨%es0, HS0⟩⟩
      iframe Hoth Hg Ho H0 H1 H2
      isplitl [HS0]
      · unfold owns; iexists _; isplitr
        swap; · iexact HS0
        ipureintro; exact acc_C c _ _ _ _ _ _ _ _ _ _ _ _ _ _ _ _ _ _
      unfold owns; iexists _; isplitr
      swap; · iexact H3
      ipureintro; exact out_C c _ _ _ _ _ _ _ _ _ _ _ _ _ _ _ _ _ _
    · rw [Dat.leavesExact_idle (dat1 V c) 3 t (idleAt1_3 t (fun h => h1 ((hcond1_1 t).mp h))) (noFlush1_3 t (fun h => h1 ((hcond1_1 t).mp h)))]
      iintro ⟨⟨⟨HS0, Hoth⟩, Hg⟩, Ho, ⟨%d0, H0⟩, ⟨%d1, H1⟩, ⟨%d2, H2⟩, ⟨%d3, H3⟩⟩
      iapply ((kernelRun_B c (grid1.coords t) _ _ _ _ _ _ _ _ _ _ (gblk1 V c t) (hblk1 V c t) (bblk1 V c t) _ (fun h => h0 ((hcond1_0 t).mp h)) (fun h => h1 ((hcond1_1 t).mp h))).2 _ Set.univ _)
      iframe H0 H1 H2 H3 HS0
      iintro ⟨H0, H1, H2, H3, ⟨%es0, HS0⟩⟩
      iframe Hoth Hg Ho H0 H1 H2
      isplitl [HS0]
      · unfold owns; iexists _; isplitr
        swap; · iexact HS0
        ipureintro; exact acc_B c _ _ _ _ _ _ _ _ _ _ _ _ _ _ _ _ _ _
      iexists _; iexact H3

theorem body_obligation1 (c : Dev nD) : BodyObligation (dat1 (F := F) V c) (defs₀ (F := F)) Variants.none () Set.univ := fun t => by
  rw [bigSep_W1, bigSep_W1]
  exact sound_body1 V c t

theorem hout1 (c : Dev nD) : (dat1 V c).Φ (Fin.last cfg1.N) ⊢ Pipeline.ΦA spec1 c :=
  PhiS1_forget V c (Fin.last cfg1.N).val (Nat.le_of_lt_succ (Fin.last cfg1.N).isLt)

end Cert.Kernel.Hand

end
-- ==== Proof.Bits.Sched2.lean ====
import proofs.«137657_j13134009991420_1_alg».proof.Proof.Bits.Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

theorem hcond2_0 : ∀ t : Fin cfg2.N, cond_0 (grid2.coords t) ↔ t.val % 5 = 0 :=
  (by decide +kernel : ∀ t : Fin grid2.N, cond_0 (grid2.coords t) ↔ t.val % 5 = 0)
theorem hcond2_1 : ∀ t : Fin cfg2.N, cond_1 (grid2.coords t) ↔ t.val % 5 = 4 :=
  (by decide +kernel : ∀ t : Fin grid2.N, cond_1 (grid2.coords t) ↔ t.val % 5 = 4)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Only the last contraction tile of a row tile touches the output block. -/
theorem idleAt2_3 : ∀ t : Fin cfg2.N, ¬cond_1 (grid2.coords t) → cfg2.idle 3 (grid2.coords t) = true := by decide +kernel
theorem noFlush2_3 : ∀ t : Fin cfg2.N, ¬cond_1 (grid2.coords t) → (cfg2.win 3).flush t = false := by decide +kernel
theorem liveAt2_3 : ∀ t : Fin cfg2.N, cond_1 (grid2.coords t) → cfg2.idle 3 (grid2.coords t) = false := by decide +kernel

abbrev ms2_0 (t : Fin cfg2.N) : Memref sig .tc .vmem S800x3200 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S3200x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S800x64 .f32 := win2_3.stage (cfg2.slots t 3)
abbrev hs2_3 (t : Fin cfg2.N) : (ms2_3 t).IsWhole := hstage2_3 ((cfg2.slots t 3).cast nbuf2_3)
/-- The accumulator: one row tile of partial sums, kept across the five contraction tiles. -/
abbrev scM2_0 : Memref sig .tc .vmem S800x64 .f32 := Memref.whole cc2_scratch0

theorem bodyAt2_eq (t : Fin cfg2.N) : bodyAt2 (F := F) t
    = cc0__spmm_relu_kernel (grid2.coords t) (ms2_0 t) (hs2_0 t) (ms2_1 t) (hs2_1 t) (ms2_2 t) (hs2_2 t) (ms2_3 t) (hs2_3 t) scM2_0 (Memref.isWhole_whole _) := rfl

abbrev others2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2_0 fullShare d) ∗ others2 c) ∗ (∃ r, prngReg c r)) := by
  unfold Pipeline.ΦA
  rw [Pipeline.scopedRest_split_of_list spec2 c [cc2_scratch0] (by decide) (by decide)]
  simp only [scM2_0, owns_whole, bigSepL]
  rfl

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
abbrev gblk2 (c : Dev nD) (t : Fin cfg2.N) : Vec F S800x3200 .f32 := iblk2 V c 0 t
abbrev hblk2 (c : Dev nD) (t : Fin cfg2.N) : Vec F S3200x64 .f32 := iblk2 V c 1 t
abbrev bblk2 (c : Dev nD) (t : Fin cfg2.N) : Vec F S1x64 .f32 := iblk2 V c 2 t

end Cert.Kernel.Hand

end
-- ==== Proof.Bits.Body2.lean ====
import proofs.«137657_j13134009991420_1_alg».proof.Proof.Bits.Sched2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- The accumulator after position `n`: the tile's partial product added to zero at a first tile, else to what the
    position before left. -/
def accAt2 (c : Dev nD) : (n : ℕ) → n < cfg2.N → Vec F S800x64 .f32
  | 0, hn => k0_pay2 (gblk2 V c ⟨0, hn⟩) (hblk2 V c ⟨0, hn⟩) (k0_pay1 (F := F))
  | n + 1, hn => k0_pay2 (gblk2 V c ⟨n + 1, hn⟩) (hblk2 V c ⟨n + 1, hn⟩)
      (if (n + 1) % 5 = 0 then k0_pay1 (F := F) else accAt2 c n (Nat.lt_of_succ_lt hn))

theorem accAt2_first (c : Dev nD) (t : Fin cfg2.N) (h0 : t.val % 5 = 0) :
    accAt2 V c t.val t.isLt = k0_pay2 (gblk2 V c t) (hblk2 V c t) (k0_pay1 (F := F)) := by
  obtain ⟨n, hn⟩ := t
  cases n with
  | zero => rfl
  | succ n => exact congrArg (k0_pay2 _ _) (if_pos h0)

theorem accAt2_next (c : Dev nD) (t : Fin cfg2.N) (h0 : ¬t.val % 5 = 0) :
    accAt2 V c t.val t.isLt = k0_pay2 (gblk2 V c t) (hblk2 V c t) (accAt2 V c (t.val - 1) (Nat.lt_of_le_of_lt (Nat.sub_le _ _) t.isLt)) := by
  obtain ⟨n, hn⟩ := t
  cases n with
  | zero => exact absurd (Nat.zero_mod _) h0
  | succ n => exact congrArg (k0_pay2 _ _) (if_neg h0)

/-- Before position `n`: at the region's entry the resting invariant; afterwards the accumulator at what the position
    before left. -/
def PhiS2 (c : Dev nD) : (n : ℕ) → n ≤ cfg2.N → sProp 𝕄
  | 0, _ => Pipeline.ΦA spec2 c
  | n + 1, hn => iprop(iprop(owns (c : Thread nD τ) scM2_0 fullShare (accAt2 V c n hn) ∗ others2 c) ∗ (∃ r, prngReg c r))

theorem PhiS2_succ (c : Dev nD) (n : ℕ) (hn : n < cfg2.N) :
    PhiS2 V c (n + 1) hn = iprop(iprop(owns (c : Thread nD τ) scM2_0 fullShare (accAt2 V c n hn) ∗ others2 c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare (accAt2 V c (n - 1) (by omega)) ∗ others2 c) ∗ (∃ r, prngReg c r)) := by
  cases n with
  | zero => exact absurd rfl hz
  | succ n => rfl

/-- At any position the invariant gives the resting one back: the accumulator's contents are forgotten. -/
theorem PhiS2_forget (c : Dev nD) (n : ℕ) (h : n ≤ cfg2.N) : PhiS2 V c n h ⊢ Pipeline.ΦA spec2 c := by
  cases n with
  | zero => exact .rfl
  | succ n =>
    rw [PhiS2_succ, PhiA2_eq]
    iintro ⟨⟨HS0, Hoth⟩, Hg⟩
    isplitl [HS0 Hoth]
    · isplitl [HS0]
      · iexists _; iexact HS0
      iexact Hoth
    iexact Hg

/-- The arrays as the region finds them; after the body each input block as it was, the output block at the
    accumulator plus the bias row, rectified; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k0_pay3 (accAt2 V c t.val t.isLt) (bblk2 V c t)
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem PhiS2_castSucc (c : Dev nD) (t : Fin cfg2.N) :
    (dat2 V c).Φ t.castSucc = PhiS2 V c t.val (Nat.le_of_lt t.isLt) := by
  dsimp only [dat2]; simp only [Fin.coe_castSucc]

theorem after2_3 (c : Dev nD) (t : Fin cfg2.N) : (dat2 V c).after 3 t = k0_pay3 (accAt2 V c t.val t.isLt) (bblk2 V c t) := rfl

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) :
    (dat2 V c).leavesExact 0 t = owns (c : Thread nD τ) (ms2_0 t) fullShare (iblk2 V c 0 t) := by
  unfold Dat.leavesExact; rw [liveAt2_0 t]; rfl
theorem leaves2_1 (c : Dev nD) (t : Fin cfg2.N) :
    (dat2 V c).leavesExact 1 t = owns (c : Thread nD τ) (ms2_1 t) fullShare (iblk2 V c 1 t) := by
  unfold Dat.leavesExact; rw [liveAt2_1 t]; rfl
theorem leaves2_2 (c : Dev nD) (t : Fin cfg2.N) :
    (dat2 V c).leavesExact 2 t = owns (c : Thread nD τ) (ms2_2 t) fullShare (iblk2 V c 2 t) := by
  unfold Dat.leavesExact; rw [liveAt2_2 t]; rfl

set_option maxHeartbeats 4800000 in
/-- The body at any point: `t % 5` says which case it is in; the invariant hands the body the accumulator at what the
    point before left (at anything at a first tile) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2
  rw [bodyAt2_eq]
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, PhiS2_castSucc V c t]
  by_cases h0 : t.val % 5 = 0
  · have h1 : ¬t.val % 5 = 4 := by omega
    have hf := PhiS2_forget V c t.val (Nat.le_of_lt t.isLt)
    rw [PhiA2_eq] at hf
    rw [Dat.leavesExact_idle (dat2 V c) 3 t (idleAt2_3 t (fun h => h1 ((hcond2_1 t).mp h))) (noFlush2_3 t (fun h => h1 ((hcond2_1 t).mp h)))]
    rw [accAt2_first V c t h0]
    iintro ⟨HPhi, Ho, ⟨%d0, H0⟩, ⟨%d1, H1⟩, ⟨%d2, H2⟩, ⟨%d3, H3⟩⟩
    ihave H := hf $$ HPhi
    icases H with ⟨⟨HS0, Hoth⟩, Hg⟩
    iapply ((kernelRun_A c (grid2.coords t) _ _ _ _ _ _ _ _ _ _ (gblk2 V c t) (hblk2 V c t) (bblk2 V c t) ((hcond2_0 t).mpr h0) (fun h => h1 ((hcond2_1 t).mp h))).2 _ Set.univ _)
    iframe H0 H1 H2 H3 HS0
    iintro ⟨H0, H1, H2, H3, ⟨%es0, HS0⟩⟩
    iframe Hoth Hg Ho H0 H1 H2
    isplitl [HS0]
    · unfold owns; iexists _; isplitr
      swap; · iexact HS0
      ipureintro; exact acc_A c _ _ _ _ _ _ _ _ _ _ _ _ _ _ _ _ _
    iexists _; iexact H3
  · have hz : t.val ≠ 0 := fun h => h0 (by rw [h])
    rw [PhiS2_pos V c _ _ hz, accAt2_next V c t h0]
    by_cases h1 : t.val % 5 = 4
    · rw [show (dat2 V c).leavesExact 3 t = owns (c : Thread nD τ) (ms2_3 t) fullShare ((dat2 V c).after 3 t) from by
        unfold Dat.leavesExact; rw [liveAt2_3 t ((hcond2_1 t).mpr h1)], after2_3, accAt2_next V c t h0]
      iintro ⟨⟨⟨HS0, Hoth⟩, Hg⟩, Ho, ⟨%d0, H0⟩, ⟨%d1, H1⟩, ⟨%d2, H2⟩, ⟨%d3, H3⟩⟩
      iapply ((kernelRun_C c (grid2.coords t) _ _ _ _ _ _ _ _ _ _ (gblk2 V c t) (hblk2 V c t) (bblk2 V c t) _ (fun h => h0 ((hcond2_0 t).mp h)) ((hcond2_1 t).mpr h1)).2.2 Set.univ _)
      iframe H0 H1 H2 HS0
      isplitl [H3]; · iexists _; iexact H3
      iintro ⟨H0, H1, H2, ⟨%e3, H3⟩, ⟨%es0, HS0⟩⟩
      iframe Hoth Hg Ho H0 H1 H2
      isplitl [HS0]
      · unfold owns; iexists _; isplitr
        swap; · iexact HS0
        ipureintro; exact acc_C c _ _ _ _ _ _ _ _ _ _ _ _ _ _ _ _ _ _
      unfold owns; iexists _; isplitr
      swap; · iexact H3
      ipureintro; exact out_C c _ _ _ _ _ _ _ _ _ _ _ _ _ _ _ _ _ _
    · rw [Dat.leavesExact_idle (dat2 V c) 3 t (idleAt2_3 t (fun h => h1 ((hcond2_1 t).mp h))) (noFlush2_3 t (fun h => h1 ((hcond2_1 t).mp h)))]
      iintro ⟨⟨⟨HS0, Hoth⟩, Hg⟩, Ho, ⟨%d0, H0⟩, ⟨%d1, H1⟩, ⟨%d2, H2⟩, ⟨%d3, H3⟩⟩
      iapply ((kernelRun_B c (grid2.coords t) _ _ _ _ _ _ _ _ _ _ (gblk2 V c t) (hblk2 V c t) (bblk2 V c t) _ (fun h => h0 ((hcond2_0 t).mp h)) (fun h => h1 ((hcond2_1 t).mp h))).2 _ Set.univ _)
      iframe H0 H1 H2 H3 HS0
      iintro ⟨H0, H1, H2, H3, ⟨%es0, HS0⟩⟩
      iframe Hoth Hg Ho H0 H1 H2
      isplitl [HS0]
      · unfold owns; iexists _; isplitr
        swap; · iexact HS0
        ipureintro; exact acc_B c _ _ _ _ _ _ _ _ _ _ _ _ _ _ _ _ _ _
      iexists _; iexact H3

theorem body_obligation2 (c : Dev nD) : BodyObligation (dat2 (F := F) V c) (defs₀ (F := F)) Variants.none () Set.univ := fun t => by
  rw [bigSep_W2, bigSep_W2]
  exact sound_body2 V c t

theorem hout2 (c : Dev nD) : (dat2 V c).Φ (Fin.last cfg2.N) ⊢ Pipeline.ΦA spec2 c :=
  PhiS2_forget V c (Fin.last cfg2.N).val (Nat.le_of_lt_succ (Fin.last cfg2.N).isLt)

end Cert.Kernel.Hand

end
-- ==== Proof.Bits.Whole.lean ====
import proofs.«137657_j13134009991420_1_alg».proof.Proof.Bits.Body0
import proofs.«137657_j13134009991420_1_alg».proof.Proof.Bits.Body1
import proofs.«137657_j13134009991420_1_alg».proof.Proof.Bits.Body2
import proofs.«137657_j13134009991420_1_alg».proof.Proof.Gen.Kernel.Regions
import Idealize.ShloMosaic.Lib.Pipeline.FrameSuffix
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The unscoped buffers' contents at the eight boundaries of @main: a host stretch applies its operations, a region
    changes only its arrays. -/
abbrev bnd0 : Dev nD → Valuation τ sig (Elt F) := fun c b => m (c, b)

abbrev bnd1 : Dev nD → Valuation τ sig (Elt F) := fun c => StableHlo.after hostOps0 (bnd0 m c)
abbrev ent0 : (c : Dev nD) → (b : Ref sig .tc) → Buf (Elt F) ((c : Thread nD τ).loc b) := fun c b => bnd1 m c b

def bnd2 (c : Dev nD) : Valuation τ sig (Elt F) :=
  Pipeline.withArrays spec0 c (bnd1 m c) fun w => (dat0 (ent0 m) c).arrAt w cfg0.N
theorem bnd2_arr (c : Dev nD) (w : Fin cfg0.W) :
    bnd2 m c (Proc.devRef .tc (Pipeline.arrRef spec0 w)) = (dat0 (ent0 m) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m c (Proc.devRef .tc b) = bnd1 m c (Proc.devRef .tc b) := by
  unfold bnd2; exact Pipeline.withArrays_of_ne spec0 c _ _ b hb

abbrev ext0 : (c : Dev nD) → (b : Ref sig .tc) → Buf (Elt F) ((c : Thread nD τ).loc b) := fun c b => bnd2 m c b
theorem hF0 (c : Dev nD) (w : Fin cfg0.W) : (dat0 (ent0 m) c).arrAt w cfg0.N = ext0 m c (Pipeline.arrRef spec0 w) :=
  (bnd2_arr m c w).symm
theorem hrest0 (c : Dev nD) : ∀ b, b ∉ Finset.univ.image (Pipeline.arrRef spec0) → ext0 m c b = ent0 m c b :=
  fun b hb => bnd2_of_ne m c b fun w e => hb (Finset.mem_image.mpr ⟨w, Finset.mem_univ _, e⟩)

abbrev bnd3 : Dev nD → Valuation τ sig (Elt F) := fun c => StableHlo.after hostOps1 (bnd2 m c)
abbrev ent1 : (c : Dev nD) → (b : Ref sig .tc) → Buf (Elt F) ((c : Thread nD τ).loc b) := fun c b => bnd3 m c b

def bnd4 (c : Dev nD) : Valuation τ sig (Elt F) :=
  Pipeline.withArrays spec1 c (bnd3 m c) fun w => (dat1 (ent1 m) c).arrAt w cfg1.N
theorem bnd4_arr (c : Dev nD) (w : Fin cfg1.W) :
    bnd4 m c (Proc.devRef .tc (Pipeline.arrRef spec1 w)) = (dat1 (ent1 m) c).arrAt w cfg1.N := by
  unfold bnd4; exact Pipeline.withArrays_arr spec1 launch1.win.arr_inj c _ _ w
theorem bnd4_of_ne (c : Dev nD) (b : Ref sig .tc) (hb : ∀ w, Pipeline.arrRef spec1 w ≠ b) :
    bnd4 m c (Proc.devRef .tc b) = bnd3 m c (Proc.devRef .tc b) := by
  unfold bnd4; exact Pipeline.withArrays_of_ne spec1 c _ _ b hb

abbrev ext1 : (c : Dev nD) → (b : Ref sig .tc) → Buf (Elt F) ((c : Thread nD τ).loc b) := fun c b => bnd4 m c b
theorem hF1 (c : Dev nD) (w : Fin cfg1.W) : (dat1 (ent1 m) c).arrAt w cfg1.N = ext1 m c (Pipeline.arrRef spec1 w) :=
  (bnd4_arr m c w).symm
theorem hrest1 (c : Dev nD) : ∀ b, b ∉ Finset.univ.image (Pipeline.arrRef spec1) → ext1 m c b = ent1 m c b :=
  fun b hb => bnd4_of_ne m c b fun w e => hb (Finset.mem_image.mpr ⟨w, Finset.mem_univ _, e⟩)

abbrev bnd5 : Dev nD → Valuation τ sig (Elt F) := fun c => StableHlo.after hostOps2 (bnd4 m c)
abbrev ent2 : (c : Dev nD) → (b : Ref sig .tc) → Buf (Elt F) ((c : Thread nD τ).loc b) := fun c b => bnd5 m c b

def bnd6 (c : Dev nD) : Valuation τ sig (Elt F) :=
  Pipeline.withArrays spec2 c (bnd5 m c) fun w => (dat2 (ent2 m) c).arrAt w cfg2.N
theorem bnd6_arr (c : Dev nD) (w : Fin cfg2.W) :
    bnd6 m c (Proc.devRef .tc (Pipeline.arrRef spec2 w)) = (dat2 (ent2 m) c).arrAt w cfg2.N := by
  unfold bnd6; exact Pipeline.withArrays_arr spec2 launch2.win.arr_inj c _ _ w
theorem bnd6_of_ne (c : Dev nD) (b : Ref sig .tc) (hb : ∀ w, Pipeline.arrRef spec2 w ≠ b) :
    bnd6 m c (Proc.devRef .tc b) = bnd5 m c (Proc.devRef .tc b) := by
  unfold bnd6; exact Pipeline.withArrays_of_ne spec2 c _ _ b hb

abbrev ext2 : (c : Dev nD) → (b : Ref sig .tc) → Buf (Elt F) ((c : Thread nD τ).loc b) := fun c b => bnd6 m c b
theorem hF2 (c : Dev nD) (w : Fin cfg2.W) : (dat2 (ent2 m) c).arrAt w cfg2.N = ext2 m c (Pipeline.arrRef spec2 w) :=
  (bnd6_arr m c w).symm
theorem hrest2 (c : Dev nD) : ∀ b, b ∉ Finset.univ.image (Pipeline.arrRef spec2) → ext2 m c b = ent2 m c b :=
  fun b hb => bnd6_of_ne m c b fun w e => hb (Finset.mem_image.mpr ⟨w, Finset.mem_univ _, e⟩)

abbrev bnd7 : Dev nD → Valuation τ sig (Elt F) := fun c => StableHlo.after hostOps3 (bnd6 m c)

theorem bnd7_keep (c : Dev nD) (r : Ref sig .tc)
    (h : (r ∉ hostOps0_W ∧ r ∉ hostOps1_W ∧ r ∉ hostOps2_W ∧ r ∉ hostOps3_W)
      ∧ (∀ w, Pipeline.arrRef spec0 w ≠ r) ∧ (∀ w, Pipeline.arrRef spec1 w ≠ r) ∧ (∀ w, Pipeline.arrRef spec2 w ≠ r)) :
    bnd7 m c (Proc.devRef .tc r) = m ((c : Thread nD τ).loc r) :=
  calc bnd7 m c (Proc.devRef .tc r)
    _ = bnd6 m c (Proc.devRef .tc r) := StableHlo.after_of_writes_sub hostOps3 _ hostOps3_writes h.1.2.2.2
    _ = bnd5 m c (Proc.devRef .tc r) := bnd6_of_ne m c r h.2.2.2
    _ = bnd4 m c (Proc.devRef .tc r) := StableHlo.after_of_writes_sub hostOps2 _ hostOps2_writes h.1.2.2.1
    _ = bnd3 m c (Proc.devRef .tc r) := bnd4_of_ne m c r h.2.2.1
    _ = bnd2 m c (Proc.devRef .tc r) := StableHlo.after_of_writes_sub hostOps1 _ hostOps1_writes h.1.2.1
    _ = bnd1 m c (Proc.devRef .tc r) := bnd2_of_ne m c r h.2.1
    _ = bnd0 m c (Proc.devRef .tc r) := StableHlo.after_of_writes_sub hostOps0 _ hostOps0_writes h.1.1
    _ = m ((c : Thread nD τ).loc r) := rfl

theorem bnd7_main_arg2 (c : Dev nD) : bnd7 m c (Proc.devRef .tc main_arg2) = m ((c : Thread nD τ).loc main_arg2) :=
  calc bnd7 m c (Proc.devRef .tc main_arg2)
    _ = bnd6 m c (Proc.devRef .tc main_arg2) := StableHlo.after_of_writes_sub hostOps3 _ hostOps3_writes (by decide)
    _ = bnd5 m c (Proc.devRef .tc main_arg2) := (bnd6_arr m c 0).trans (((dat2 (ent2 m) c).arrAt_in 0 rfl _).trans (A_eq2 (ent2 m) c 0))
    _ = bnd4 m c (Proc.devRef .tc main_arg2) := StableHlo.after_of_writes_sub hostOps2 _ hostOps2_writes (by decide)
    _ = bnd3 m c (Proc.devRef .tc main_arg2) := (bnd4_arr m c 0).trans (((dat1 (ent1 m) c).arrAt_in 0 rfl _).trans (A_eq1 (ent1 m) c 0))
    _ = bnd2 m c (Proc.devRef .tc main_arg2) := StableHlo.after_of_writes_sub hostOps1 _ hostOps1_writes (by decide)
    _ = bnd1 m c (Proc.devRef .tc main_arg2) := (bnd2_arr m c 0).trans (((dat0 (ent0 m) c).arrAt_in 0 rfl _).trans (A_eq0 (ent0 m) c 0))
    _ = bnd0 m c (Proc.devRef .tc main_arg2) := StableHlo.after_of_writes_sub hostOps0 _ hostOps0_writes (by decide)
    _ = m ((c : Thread nD τ).loc main_arg2) := rfl

abbrev adm : (p : Fin 3) → (pcfgs (F := F) p).Adm := fun p => (cfgs p).toPCfg_adm

/-- Every region's proof data, each at its entry contents. -/
def pdats : (p : Fin 3) → (c : Dev nD) → Dat τ (Elt F) Unit ℕ (UR sig nD τ) ℕ (Pipeline.pin (pcfgs (F := F)) adm p) c
  | ⟨0, _⟩ => fun c => dat0 (ent0 m) c
  | ⟨1, _⟩ => fun c => dat1 (ent1 m) c
  | ⟨2, _⟩ => fun c => dat2 (ent2 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (bnd7 m c) ∗ ∃ r, prngReg c r)

set_option backward.isDefEq.respectTransparency.types false in
/-- A region as a segment, entered with the unscoped buffers at `Bi` and left with them at `Bo`, where `Bo` is `Bi` off the
    region's arrays and the proof data's final contents on them, and the proof data owes nothing. -/
def regOf (p : Fin 3) (la : Pipeline.LaunchFacts (nD := nD) (τ := τ) cfgs p) (Bi Bo : Dev nD → Valuation τ sig (Elt F))
    (hb : ∀ c, Pipeline.BodyObligationLoose (pdats m p c) defs₀ 𝒱₀ () Set.univ)
    (hq : ∀ c w, (pdats m p c).q w = fullShare) (ho : ∀ c t, (pdats m p c).owed t = 0) (hrec : ∀ c t, (pdats m p c).recorded t = Set.univ)
    (hA : ∀ c w, (pdats m p c).A w = Bi c (Pipeline.arrRef (pcfgs (F := F) p).spec w))
    (hΦ : ∀ c, (pdats m p c).Φ 0 = Pipeline.ΦA (pcfgs (F := F) p).spec c)
    (hout : ∀ c, (pdats m p c).Φ (Fin.last _) ⊢ Pipeline.ΦA (pcfgs (F := F) p).spec c)
    (hF : ∀ c w, (pdats m p c).arrAt w (Pipeline.pin (pcfgs (F := F)) adm p).N = Bo c (Pipeline.arrRef (pcfgs (F := F) p).spec w))
    (hrest : ∀ c (b : Ref sig .tc), b ∉ Finset.univ.image (Pipeline.arrRef (pcfgs (F := F) p).spec) → Bo c b = Bi c b) :
    Pipeline.RegionSeg (pcfgs (F := F)) adm (pdats m) () defs₀ 𝒱₀ L lv p where
  win := la.win.to₀
  block_pos := la.block_pos
  stage_whole := la.stage_whole
  K := PEmpty
  osem k := k.elim
  ho := Pipeline.OwnSemFacts.none _
  hbody := hb
  hwaits := Pipeline.hwaits_of_owed_zero _ _ _ _ L lv p ho
  pre c := iprop(StableHlo.held (c : Thread nD τ) (Pipeline.ucRefs τ sig) (Bi c) ∗ R c)
  post c := iprop(StableHlo.held (c : Thread nD τ) (Pipeline.ucRefs τ sig) (Bo c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (fun b => Bi c b)
  hentry c := by
    rw [Pipeline.ownSems0_none]
    have hsplit := Pipeline.arrays_of_unscopedBufs (p := p) (pcfgs (F := F)) adm (pdats m) la.win la.arr_whole c
      ((pdats m p c).share_full (hq c)) (fun b => Bi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c]
      icases HO with ⟨%W, HO⟩; iexists W; isplitr; · ipureintro; exact fun _ _ => Or.inl (by rw [hrec c]; exact Set.mem_univ _)
      iexact HO
    isplitl [Hp]; · iexact Hp
    iexact Hrest
  hin c := by
    rw [hΦ c]; unfold Pipeline.ΦA
    iintro ⟨Hp, -, Hr⟩
    isplitl [Hr]; · iexact Hr
    iexact Hp
  hout c := by
    have h := hout c
    unfold Pipeline.ΦA at h
    rw [Pipeline.ownSems0_none]
    iintro HPhi
    ihave H := h $$ HPhi
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c (pdats m) ((pdats m p c).share_full (hq c))
      (fun b => Bi c b) (fun b => Bo c b) ((pdats m p c).arrAt · _) (hF c) (hrest c)
    rw [Pipeline.unscopedBufs_held] at hjoin
    unfold Pipeline.Dat.owesAt Pipeline.owesWithin
    rw [ho c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

abbrev reg0 := regOf m 0 launch0 (bnd1 m) (bnd2 m) (fun c => (body_obligation0 (ent0 m) c).loose) (fun _ _ => rfl) (fun _ _ => rfl) (fun _ _ => rfl) (fun _ _ => rfl)
  (fun _ => rfl) (hout0 (ent0 m)) (hF0 m) (hrest0 m)
abbrev reg1 := regOf m 1 launch1 (bnd3 m) (bnd4 m) (fun c => (body_obligation1 (ent1 m) c).loose) (fun _ _ => rfl) (fun _ _ => rfl) (fun _ _ => rfl) (fun _ _ => rfl)
  (fun _ => rfl) (hout1 (ent1 m)) (hF1 m) (hrest1 m)
abbrev reg2 := regOf m 2 launch2 (bnd5 m) (bnd6 m) (fun c => (body_obligation2 (ent2 m) c).loose) (fun _ _ => rfl) (fun _ _ => rfl) (fun _ _ => rfl) (fun _ _ => rfl)
  (fun _ => rfl) (hout2 (ent2 m)) (hF2 m) (hrest2 m)

abbrev segs : List (Pipeline.Seg (pcfgs (F := F)) adm (pdats m) () defs₀ 𝒱₀ L lv) :=
  [ .host (hseg hostOps0 hostOps0_sub hostOps0_fresh (bnd0 m)),
    .region (reg0 m),
    .host (hseg hostOps1 hostOps1_sub hostOps1_fresh (bnd2 m)),
    .region (reg1 m),
    .host (hseg hostOps2 hostOps2_sub hostOps2_fresh (bnd4 m)),
    .region (reg2 m),
    .host (hseg hostOps3 hostOps3_sub hostOps3_fresh (bnd6 m)) ]

theorem main_run (c : Dev nD) : main (F := F) c = Pipeline.Seg.run (segs m) := (main_chain c).trans (by chain_rfl)

set_option backward.isDefEq.respectTransparency.types false in

/-- Every weakly fair execution of @main ends with every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = bnd7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (bnd7 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (bnd0 m c)
        from Pipeline.unscopedBufs_held c (bnd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd7 m c b)
    (hfin := fun c s' => by
      iintro ⟨⟨Hh, -⟩, HSI⟩
      unfold StableHlo.held
      imodintro
      iapply (pointsTo_read_all (Pipeline.ucRefs τ sig) (fun b => (((c : Thread nD τ)).1, b)) (bnd7 m c) s')
      isplitl [Hh] <;> iassumption)
    (hQ := fun s h c => h c)

/-- Every argument array is as launched. -/
abbrev Kept (mem : (ℓ : Loc nD τ sig) → Buf (Elt F) ℓ) (c : Dev nD) : Prop :=
  mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)

theorem kept (c : Dev nD) (mem : (ℓ : Loc nD τ sig) → Buf (Elt F) ℓ)
    (h : ∀ b ∈ Pipeline.ucRefs τ sig, mem (((c : Thread nD τ)).1, b) = bnd7 m c b) : Kept m mem c :=
  have k (r : Ref sig .tc) (hu : ¬ (Proc.devRef .tc r : DevRef τ sig).isScoped) hk := (h _ (mem_uc r hu)).trans (bnd7_keep m c r hk)
  ⟨k main_arg0 (by decide) (by decide), k main_arg1 (by decide) (by decide), (h _ (mem_uc main_arg2 (by decide))).trans (bnd7_main_arg2 m c),
   k main_arg3 (by decide) (by decide), k main_arg4 (by decide) (by decide), k main_arg5 (by decide) (by decide), k main_arg6 (by decide) (by decide)⟩

theorem frame : θ_run defs (onTc (τ := τ) (main (F := F))) ⟨m, fun _ => 0, ρ⟩ (fun r => ∀ c : Dev nD, Kept m r.2.mem c) :=
  (θ_run defs _ _).mono (fun r h c => kept m c r.2.mem (h c)) (run_main m ρ)

end Cert.Kernel.Hand

end
-- ==== Proof.LibPlainDot.lean ====
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

theorem plain_contr_rank : (DotDims.plain M K N).contr.rank = 1 := rfl

theorem plain_contr_size : (DotDims.plain M K N).contr.size ⟨0, by rw [plain_contr_rank]; exact Nat.one_pos⟩ = K := rfl

theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction of a plain [M, K] × [K, N] product at (i, j) is the sum over k of l(i, k) · r(k, j). -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A matrix product into a zero accumulator, at an entry, at the extended reals. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host matrix product at an entry, at the extended reals. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-- A vector laid along the columns of an [R, C] matrix reads its own entry in every row. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.Payloads.lean ====
import proofs.«137657_j13134009991420_1_alg».proof.Proof.Gen.KernelIdeal.Skeleton
import proofs.«137657_j13134009991420_1_alg».proof.Proof.LibPlainDot
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-- The reset value is zero. -/
theorem payA_apply (y : S800x64.Idx) : (k0_pay1 (F := Ideal)) y = 0 := by
  unfold k0_pay1
  simp only [shapeCast_self, broadcast_apply]
  exact Ideal.ofBits_zero_f32

/-- One accumulation step: what was there plus the tile's partial product, a sum over the tile's 3200 columns. -/
theorem payB_apply (g : Vec Ideal S800x3200 .f32) (h : Vec Ideal S3200x64 .f32) (s : Vec Ideal S800x64 .f32) (y : S800x64.Idx) :
    k0_pay2 (F := Ideal) g h s y = s y + ∑ j : Fin 3200, g (ix2 (y 0) j) * h (ix2 j (y 1)) := by
  unfold k0_pay2
  simp only [shapeCast_self]
  rw [addf_apply]
  congr 1
  exact Cert.LibPlainDot.matmul_plain_zero (M := 800) (K := 3200) (N := 64) none (truncf .bf16 g bitsLt_bf16_f32) (truncf .bf16 h bitsLt_bf16_f32) y

/-- The finished entry: the accumulator plus the bias row's entry, rectified. -/
theorem payC_apply (s : Vec Ideal S800x64 .f32) (b : Vec Ideal S1x64 .f32) (p : Fin 800) (q : Fin 64) :
    k0_pay3 (F := Ideal) s b (ix2 p q) = max (s (ix2 p q) + b (ix2 (0 : Fin 1) q)) 0 := by
  unfold k0_pay3
  simp only [shapeCast_self]
  rw [maximumf_apply, addf_apply, broadcast_apply]
  rw [broadcastTo_apply b broadcasts_S1x64_S800x64 (ix2 p q) (ix2 (0 : Fin 1) q) (fun a => by
    match a with
    | ⟨0, _⟩ => show (0 : Nat) = if (1 : Nat) = 1 then 0 else _; rw [if_pos rfl]
    | ⟨1, _⟩ =>
      show q.val = if (64 : Nat) = 1 then 0 else q.val
      rw [if_neg (by decide)])]
  exact congrArg (max _) Ideal.ofBits_zero_f32

end Cert.KernelIdeal.Hand

end
-- ==== Proof.LayerSum.lean ====
import proofs.«137657_j13134009991420_1_alg».proof.KernelIdeal
import Idealize.ShloMosaic.Lib.ValueIdx
import Idealize.ShloMosaic.Lib.Pipeline.Value
import Idealize.ShloMosaic.PureOps.Ideal.Laws

noncomputable section

namespace Cert.KernelIdeal.Hand

open Cert.KernelIdeal Idealize.ShloMosaic Idealize.ShloMosaic.ValueIdx

/-- The j-th term of entry (r, q)'s contraction sum (zero past the end), so that a stretch of terms is a sum over a range. -/
def term (G : S16000x16000.Idx → EReal) (H : S16000x64.Idx → EReal) (r : Fin 16000) (q : Fin 64) (j : ℕ) : EReal :=
  if h : j < 16000 then G (ix2 r ⟨j, h⟩) * H (ix2 ⟨j, h⟩ q) else 0

/-- One layer at an entry: the whole contraction sum plus the bias, rectified. -/
def layer (G : S16000x16000.Idx → EReal) (H : S16000x64.Idx → EReal) (B : S1x64.Idx → EReal) : S16000x64.Idx → EReal :=
  fun i => max ((∑ j : Fin 16000, G (ix2 (i 0) j) * H (ix2 j (i 1))) + B (ix2 (0 : Fin 1) (i 1))) 0

variable (G : S16000x16000.Idx → EReal) (H : S16000x64.Idx → EReal) (r : Fin 16000) (q : Fin 64)

theorem sum_term_all : ∑ j ∈ Finset.range 16000, term G H r q j = ∑ j : Fin 16000, G (ix2 r j) * H (ix2 j q) := by
  rw [← Fin.sum_univ_eq_sum_range (fun j => term G H r q j) 16000]
  exact Finset.sum_congr rfl fun j _ => by unfold term; rw [dif_pos j.isLt]

/-- A tile's partial product is the k-th stretch of 3200 terms, when the tile's row and column are the arrays' there. -/
theorem tile_stretch (g : S800x3200.Idx → EReal) (h : S3200x64.Idx → EReal) (p : Fin 800) (k : ℕ) (hk : k < 5)
    (hg : ∀ (j : Fin 3200) (hj : 3200 * k + j.val < 16000), g (ix2 p j) = G (ix2 r ⟨3200 * k + j.val, hj⟩))
    (hh : ∀ (j : Fin 3200) (hj : 3200 * k + j.val < 16000), h (ix2 j q) = H (ix2 ⟨3200 * k + j.val, hj⟩ q)) :
    ∑ j : Fin 3200, g (ix2 p j) * h (ix2 j q) = ∑ j ∈ Finset.range 3200, term G H r q (3200 * k + j) := by
  rw [← Fin.sum_univ_eq_sum_range (fun j => term G H r q (3200 * k + j)) 3200]
  refine Finset.sum_congr rfl fun j _ => ?_
  have hj : 3200 * k + j.val < 16000 := by have := j.isLt; omega
  unfold term; rw [dif_pos hj, hg j hj, hh j hj]

theorem stretch_step (k : ℕ) :
    (∑ j ∈ Finset.range (3200 * k), term G H r q j) + ∑ j ∈ Finset.range 3200, term G H r q (3200 * k + j)
      = ∑ j ∈ Finset.range (3200 * (k + 1)), term G H r q j := by
  rw [show 3200 * (k + 1) = 3200 * k + 3200 from by omega, Finset.sum_range_add]

theorem stretch_first :
    (0 : EReal) + ∑ j ∈ Finset.range 3200, term G H r q (3200 * 0 + j) = ∑ j ∈ Finset.range (3200 * (0 + 1)), term G H r q j := by
  rw [zero_add]; simp only [Nat.mul_zero, Nat.zero_add, Nat.mul_one]

/-- All five stretches are the whole sum. -/
theorem layer_of_full (B : S1x64.Idx → EReal) (b : EReal) (hb : b = B (ix2 (0 : Fin 1) q)) :
    max ((∑ j ∈ Finset.range (3200 * (4 + 1)), term G H r q j) + b) 0 = layer G H B (ix2 r q) := by
  rw [show 3200 * (4 + 1) = 16000 from rfl, sum_term_all, hb]
  rfl

end Cert.KernelIdeal.Hand

end
-- ==== Proof.Value0.lean ====
import proofs.«137657_j13134009991420_1_alg».proof.Proof.Body0
import proofs.«137657_j13134009991420_1_alg».proof.Proof.Payloads
import proofs.«137657_j13134009991420_1_alg».proof.Proof.LayerSum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-- Where each block sits at point t = 5 i + k: the graph's at (i, k), the projection's at (k, 0), the bias row's and
    the result's at (0, 0) and (i, 0). -/
theorem idx_facts0 : ∀ t : Fin cfg0.N, win0_0.index t (0 : Fin 2) = t.val / 5 ∧ win0_0.index t (1 : Fin 2) = t.val % 5
    ∧ win0_1.index t (0 : Fin 2) = t.val % 5 ∧ win0_1.index t (1 : Fin 2) = 0
    ∧ win0_2.index t (0 : Fin 2) = 0 ∧ win0_2.index t (1 : Fin 2) = 0
    ∧ win0_3.index t (0 : Fin 2) = t.val / 5 ∧ win0_3.index t (1 : Fin 2) = 0 :=
  (by decide +kernel : ∀ t : Fin grid0.N, _)

theorem gblk0_apply (c : Dev nD) (t : Fin cfg0.N) (x : S800x3200.Idx) (k : S16000x16000.Idx)
    (hk0 : (k 0).val = 800 * (t.val / 5) + (x 0).val) (hk1 : (k 1).val = 3200 * (t.val % 5) + (x 1).val) :
    gblk0 V c t x = (V c (Pipeline.arrRef spec0 0) : S16000x16000.Idx → Elt Ideal .f32) k := by
  obtain ⟨e0, e1, -⟩ := idx_facts0 t
  unfold gblk0 iblk0
  rw [View.read_apply]
  show V c (Pipeline.arrRef spec0 0) _ = V c (Pipeline.arrRef spec0 0) _
  congr 1
  funext a
  apply Fin.ext
  match a with
  | ⟨0, _⟩ => show win0_0.index t (0 : Fin 2) * 800 + 1 * (x 0).val = (k 0).val; rw [e0, hk0]; omega
  | ⟨1, _⟩ => show win0_0.index t (1 : Fin 2) * 3200 + 1 * (x 1).val = (k 1).val; rw [e1, hk1]; omega

theorem hblk0_apply (c : Dev nD) (t : Fin cfg0.N) (x : S3200x64.Idx) (k : S16000x64.Idx)
    (hk0 : (k 0).val = 3200 * (t.val % 5) + (x 0).val) (hk1 : (k 1).val = (x 1).val) :
    hblk0 V c t x = (V c (Pipeline.arrRef spec0 1) : S16000x64.Idx → Elt Ideal .f32) k := by
  obtain ⟨-, -, e0, e1, -⟩ := idx_facts0 t
  unfold hblk0 iblk0
  rw [View.read_apply]
  show V c (Pipeline.arrRef spec0 1) _ = V c (Pipeline.arrRef spec0 1) _
  congr 1
  funext a
  apply Fin.ext
  match a with
  | ⟨0, _⟩ => show win0_1.index t (0 : Fin 2) * 3200 + 1 * (x 0).val = (k 0).val; rw [e0, hk0]; omega
  | ⟨1, _⟩ => show win0_1.index t (1 : Fin 2) * 64 + 1 * (x 1).val = (k 1).val; rw [e1, hk1]; omega

theorem bblk0_apply (c : Dev nD) (t : Fin cfg0.N) (x : S1x64.Idx) (k : S1x64.Idx)
    (hk0 : (k 0).val = (x 0).val) (hk1 : (k 1).val = (x 1).val) :
    bblk0 V c t x = (V c (Pipeline.arrRef spec0 2) : S1x64.Idx → Elt Ideal .f32) k := by
  obtain ⟨-, -, -, -, e0, e1, -⟩ := idx_facts0 t
  unfold bblk0 iblk0
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * (x 0).val = (k 0).val; rw [e0, hk0]; omega
  | ⟨1, _⟩ => show win0_2.index t (1 : Fin 2) * 64 + 1 * (x 1).val = (k 1).val; rw [e1, hk1]; omega

/-- The point's partial product at (p, q) is the (t % 5)-th stretch of row 800 (t / 5) + p's sum. -/
theorem part0 (c : Dev nD) (t : Fin cfg0.N) (p : Fin 800) (q : Fin 64) (r : Fin 16000) (hr : r.val = 800 * (t.val / 5) + p.val) (s : Vec Ideal S800x64 .f32) :
    k0_pay2 (F := Ideal) (gblk0 V c t) (hblk0 V c t) s (ix2 p q)
      = s (ix2 p q) + ∑ j ∈ Finset.range 3200, term (V c (Pipeline.arrRef spec0 0)) (V c (Pipeline.arrRef spec0 1)) r q (3200 * (t.val % 5) + j) :=
  (payB_apply _ _ _ _).trans (congrArg (s (ix2 p q) + ·) (tile_stretch (V c (Pipeline.arrRef spec0 0)) (V c (Pipeline.arrRef spec0 1)) r q (gblk0 V c t) (hblk0 V c t) p (t.val % 5) (Nat.mod_lt _ (by decide))
    (fun j hj => gblk0_apply V c t (ix2 p j) (ix2 r ⟨_, hj⟩) hr rfl)
    (fun j hj => hblk0_apply V c t (ix2 j q) (ix2 ⟨_, hj⟩ q) rfl rfl)))

theorem acc_first0 (c : Dev nD) (t : Fin cfg0.N) (h0 : t.val % 5 = 0) (p : Fin 800) (q : Fin 64) (r : Fin 16000) (hr : r.val = 800 * (t.val / 5) + p.val) :
    accAt0 V c t.val t.isLt (ix2 p q) = ∑ j ∈ Finset.range (3200 * (t.val % 5 + 1)), term (V c (Pipeline.arrRef spec0 0)) (V c (Pipeline.arrRef spec0 1)) r q j := by
  rw [accAt0_first V c t h0]
  refine (part0 V c t p q r hr _).trans ?_
  rw [payA_apply, h0]
  exact stretch_first (V c (Pipeline.arrRef spec0 0)) (V c (Pipeline.arrRef spec0 1)) r q

/-- The accumulator after point t = 5 i + k holds, at (p, q), the first 3200 (k + 1) terms of row 800 i + p's sum. -/
theorem acc_inv0 (c : Dev nD) : ∀ (n : ℕ) (hn : n < cfg0.N) (p : Fin 800) (q : Fin 64) (r : Fin 16000), r.val = 800 * (n / 5) + p.val →
    accAt0 V c n hn (ix2 p q) = ∑ j ∈ Finset.range (3200 * (n % 5 + 1)), term (V c (Pipeline.arrRef spec0 0)) (V c (Pipeline.arrRef spec0 1)) r q j := by
  intro n
  induction n with
  | zero => exact fun hn p q r hr => acc_first0 V c ⟨0, hn⟩ (Nat.zero_mod 5) p q r hr
  | succ n ih =>
    intro hn p q r hr
    by_cases h0 : (n + 1) % 5 = 0
    · exact acc_first0 V c ⟨n + 1, hn⟩ h0 p q r hr
    · have hk : n % 5 + 1 = (n + 1) % 5 := by omega
      have hr' : r.val = 800 * (n / 5) + p.val := by rw [hr]; omega
      rw [show accAt0 V c (n + 1) hn = _ from accAt0_next V c ⟨n + 1, hn⟩ h0]
      refine (part0 V c ⟨n + 1, hn⟩ p q r hr _).trans ?_
      refine (congrArg (· + _) ((ih (Nat.lt_of_succ_lt hn) p q r hr').trans (by rw [hk]))).trans ?_
      exact stretch_step (V c (Pipeline.arrRef spec0 0)) (V c (Pipeline.arrRef spec0 1)) r q ((n + 1) % 5)

/-- After point 5 i + 4 the output block holds the layer's result on rows 800 i … 800 i + 799. -/
theorem tile_done0 (c : Dev nD) (t : Fin cfg0.N) (h1 : t.val % 5 = 4) (p : Fin 800) (q : Fin 64) (r : Fin 16000) (hr : r.val = 800 * (t.val / 5) + p.val) :
    k0_pay3 (F := Ideal) (accAt0 V c t.val t.isLt) (bblk0 V c t) (ix2 p q) = layer (V c (Pipeline.arrRef spec0 0)) (V c (Pipeline.arrRef spec0 1)) (V c (Pipeline.arrRef spec0 2)) (ix2 r q) := by
  refine (payC_apply _ _ p q).trans ?_
  rw [acc_inv0 V c t.val t.isLt p q r hr, h1]
  exact layer_of_full (V c (Pipeline.arrRef spec0 0)) (V c (Pipeline.arrRef spec0 1)) r q (V c (Pipeline.arrRef spec0 2)) _ (bblk0_apply V c t (ix2 (0 : Fin 1) q) (ix2 (0 : Fin 1) q) rfl rfl)

/-- The output block of a point that closes a row tile is that block of the layer's result. -/
theorem flushed0_eq (c : Dev nD) (t : Fin cfg0.N) (hf : (cfg0.win 3).flush t = true) :
    (dat0 V c).flushed 3 t = ((cfg0.win 3).blk t).view.read (Elt Ideal) (layer (V c (Pipeline.arrRef spec0 0)) (V c (Pipeline.arrRef spec0 1)) (V c (Pipeline.arrRef spec0 2))) := by
  have h1 : t.val % 5 = 4 := (flush0_3 t).mp hf
  have hN : t.val < 100 := lt_of_lt_of_eq t.isLt (show cfg0.N = 100 from N_0)
  show (cfg0.win 3).cut (grid0.coords t) ((dat0 V c).after 3 t) = _
  rw [after0_3]
  funext y
  obtain ⟨p, q, rfl⟩ : ∃ (p : Fin 800) (q : Fin 64), y = ix2 p q := ⟨y 0, y 1, eq_ix2 y⟩
  have hr : 800 * (t.val / 5) + p.val < 16000 := by have := p.isLt; omega
  have hemb : ((cfg0.win 3).blk t).view.emb (ix2 p q) = ix2 (⟨800 * (t.val / 5) + p.val, hr⟩ : Fin 16000) q := by
    obtain ⟨-, -, -, -, -, -, e0, e1⟩ := idx_facts0 t
    funext a
    apply Fin.ext
    match a with
    | ⟨0, _⟩ => show win0_3.index t (0 : Fin 2) * 800 + 1 * p.val = 800 * (t.val / 5) + p.val; rw [e0]; omega
    | ⟨1, _⟩ => show win0_3.index t (1 : Fin 2) * 64 + 1 * q.val = q.val; rw [e1]; omega
  show k0_pay3 (F := Ideal) (accAt0 V c t.val t.isLt) (bblk0 V c t) (ix2 p q) = layer _ _ _ (((cfg0.win 3).blk t).view.emb (ix2 p q))
  rw [hemb]
  exact tile_done0 V c t h1 p q _ rfl

theorem mem_blk0 (t : Fin cfg0.N) (i : S16000x64.Idx) :
    i ∈ ((cfg0.win 3).blk t).view.set ↔ ∀ a : Fin 2, win0_3.index t a * S800x64.size a ≤ (i a).val ∧ (i a).val < win0_3.index t a * S800x64.size a + S800x64.size a := by
  show i ∈ ((View.whole main_v3).slice (win0_3.rect t)).set ↔ _
  rw [View.set_slice_whole, Rect.mem_set_unit]
  exact Iff.rfl

/-- The result array after the region is the layer's result of the graph, the projection and the bias row as the region
    found them: row r comes from the point that closes row tile r / 800. -/
theorem final0 (c : Dev nD) : (dat0 V c).arrAt 3 cfg0.N = layer (V c (Pipeline.arrRef spec0 0)) (V c (Pipeline.arrRef spec0 1)) (V c (Pipeline.arrRef spec0 2)) :=
  (dat0 V c).arrAt_eq_of_cover 3 (layer (V c (Pipeline.arrRef spec0 0)) (V c (Pipeline.arrRef spec0 1)) (V c (Pipeline.arrRef spec0 2))) (fun t hf => flushed0_eq V c t hf) fun i => by
    have hi0 : (i 0).val < 16000 := (i 0).isLt
    have hi1 : (i 1).val < 64 := (i 1).isLt
    have ht : 5 * ((i 0).val / 800) + 4 < cfg0.N := by rw [show cfg0.N = 100 from N_0]; omega
    refine ⟨⟨5 * ((i 0).val / 800) + 4, ht⟩, (flush0_3 _).mpr (by show (5 * ((i 0).val / 800) + 4) % 5 = 4; omega), ?_⟩
    rw [mem_blk0]
    obtain ⟨-, -, -, -, -, -, e0, e1⟩ := idx_facts0 ⟨5 * ((i 0).val / 800) + 4, ht⟩
    intro a
    match a with
    | ⟨0, _⟩ =>
      show win0_3.index ⟨5 * ((i 0).val / 800) + 4, ht⟩ (0 : Fin 2) * 800 ≤ (i 0).val ∧ (i 0).val < win0_3.index ⟨5 * ((i 0).val / 800) + 4, ht⟩ (0 : Fin 2) * 800 + 800
      rw [e0]
      show (5 * ((i 0).val / 800) + 4) / 5 * 800 ≤ (i 0).val ∧ (i 0).val < (5 * ((i 0).val / 800) + 4) / 5 * 800 + 800
      omega
    | ⟨1, _⟩ =>
      show win0_3.index ⟨5 * ((i 0).val / 800) + 4, ht⟩ (1 : Fin 2) * 64 ≤ (i 1).val ∧ (i 1).val < win0_3.index ⟨5 * ((i 0).val / 800) + 4, ht⟩ (1 : Fin 2) * 64 + 64
      rw [e1]
      omega

end Cert.KernelIdeal.Hand

end
-- ==== Proof.Value1.lean ====
import proofs.«137657_j13134009991420_1_alg».proof.Proof.Body1
import proofs.«137657_j13134009991420_1_alg».proof.Proof.Payloads
import proofs.«137657_j13134009991420_1_alg».proof.Proof.LayerSum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-- Where each block sits at point t = 5 i + k: the graph's at (i, k), the projection's at (k, 0), the bias row's and
    the result's at (0, 0) and (i, 0). -/
theorem idx_facts1 : ∀ t : Fin cfg1.N, win1_0.index t (0 : Fin 2) = t.val / 5 ∧ win1_0.index t (1 : Fin 2) = t.val % 5
    ∧ win1_1.index t (0 : Fin 2) = t.val % 5 ∧ win1_1.index t (1 : Fin 2) = 0
    ∧ win1_2.index t (0 : Fin 2) = 0 ∧ win1_2.index t (1 : Fin 2) = 0
    ∧ win1_3.index t (0 : Fin 2) = t.val / 5 ∧ win1_3.index t (1 : Fin 2) = 0 :=
  (by decide +kernel : ∀ t : Fin grid1.N, _)

theorem gblk1_apply (c : Dev nD) (t : Fin cfg1.N) (x : S800x3200.Idx) (k : S16000x16000.Idx)
    (hk0 : (k 0).val = 800 * (t.val / 5) + (x 0).val) (hk1 : (k 1).val = 3200 * (t.val % 5) + (x 1).val) :
    gblk1 V c t x = (V c (Pipeline.arrRef spec1 0) : S16000x16000.Idx → Elt Ideal .f32) k := by
  obtain ⟨e0, e1, -⟩ := idx_facts1 t
  unfold gblk1 iblk1
  rw [View.read_apply]
  show V c (Pipeline.arrRef spec1 0) _ = V c (Pipeline.arrRef spec1 0) _
  congr 1
  funext a
  apply Fin.ext
  match a with
  | ⟨0, _⟩ => show win1_0.index t (0 : Fin 2) * 800 + 1 * (x 0).val = (k 0).val; rw [e0, hk0]; omega
  | ⟨1, _⟩ => show win1_0.index t (1 : Fin 2) * 3200 + 1 * (x 1).val = (k 1).val; rw [e1, hk1]; omega

theorem hblk1_apply (c : Dev nD) (t : Fin cfg1.N) (x : S3200x64.Idx) (k : S16000x64.Idx)
    (hk0 : (k 0).val = 3200 * (t.val % 5) + (x 0).val) (hk1 : (k 1).val = (x 1).val) :
    hblk1 V c t x = (V c (Pipeline.arrRef spec1 1) : S16000x64.Idx → Elt Ideal .f32) k := by
  obtain ⟨-, -, e0, e1, -⟩ := idx_facts1 t
  unfold hblk1 iblk1
  rw [View.read_apply]
  show V c (Pipeline.arrRef spec1 1) _ = V c (Pipeline.arrRef spec1 1) _
  congr 1
  funext a
  apply Fin.ext
  match a with
  | ⟨0, _⟩ => show win1_1.index t (0 : Fin 2) * 3200 + 1 * (x 0).val = (k 0).val; rw [e0, hk0]; omega
  | ⟨1, _⟩ => show win1_1.index t (1 : Fin 2) * 64 + 1 * (x 1).val = (k 1).val; rw [e1, hk1]; omega

theorem bblk1_apply (c : Dev nD) (t : Fin cfg1.N) (x : S1x64.Idx) (k : S1x64.Idx)
    (hk0 : (k 0).val = (x 0).val) (hk1 : (k 1).val = (x 1).val) :
    bblk1 V c t x = (V c (Pipeline.arrRef spec1 2) : S1x64.Idx → Elt Ideal .f32) k := by
  obtain ⟨-, -, -, -, e0, e1, -⟩ := idx_facts1 t
  unfold bblk1 iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * (x 0).val = (k 0).val; rw [e0, hk0]; omega
  | ⟨1, _⟩ => show win1_2.index t (1 : Fin 2) * 64 + 1 * (x 1).val = (k 1).val; rw [e1, hk1]; omega

/-- The point's partial product at (p, q) is the (t % 5)-th stretch of row 800 (t / 5) + p's sum. -/
theorem part1 (c : Dev nD) (t : Fin cfg1.N) (p : Fin 800) (q : Fin 64) (r : Fin 16000) (hr : r.val = 800 * (t.val / 5) + p.val) (s : Vec Ideal S800x64 .f32) :
    k0_pay2 (F := Ideal) (gblk1 V c t) (hblk1 V c t) s (ix2 p q)
      = s (ix2 p q) + ∑ j ∈ Finset.range 3200, term (V c (Pipeline.arrRef spec1 0)) (V c (Pipeline.arrRef spec1 1)) r q (3200 * (t.val % 5) + j) :=
  (payB_apply _ _ _ _).trans (congrArg (s (ix2 p q) + ·) (tile_stretch (V c (Pipeline.arrRef spec1 0)) (V c (Pipeline.arrRef spec1 1)) r q (gblk1 V c t) (hblk1 V c t) p (t.val % 5) (Nat.mod_lt _ (by decide))
    (fun j hj => gblk1_apply V c t (ix2 p j) (ix2 r ⟨_, hj⟩) hr rfl)
    (fun j hj => hblk1_apply V c t (ix2 j q) (ix2 ⟨_, hj⟩ q) rfl rfl)))

theorem acc_first1 (c : Dev nD) (t : Fin cfg1.N) (h0 : t.val % 5 = 0) (p : Fin 800) (q : Fin 64) (r : Fin 16000) (hr : r.val = 800 * (t.val / 5) + p.val) :
    accAt1 V c t.val t.isLt (ix2 p q) = ∑ j ∈ Finset.range (3200 * (t.val % 5 + 1)), term (V c (Pipeline.arrRef spec1 0)) (V c (Pipeline.arrRef spec1 1)) r q j := by
  rw [accAt1_first V c t h0]
  refine (part1 V c t p q r hr _).trans ?_
  rw [payA_apply, h0]
  exact stretch_first (V c (Pipeline.arrRef spec1 0)) (V c (Pipeline.arrRef spec1 1)) r q

/-- The accumulator after point t = 5 i + k holds, at (p, q), the first 3200 (k + 1) terms of row 800 i + p's sum. -/
theorem acc_inv1 (c : Dev nD) : ∀ (n : ℕ) (hn : n < cfg1.N) (p : Fin 800) (q : Fin 64) (r : Fin 16000), r.val = 800 * (n / 5) + p.val →
    accAt1 V c n hn (ix2 p q) = ∑ j ∈ Finset.range (3200 * (n % 5 + 1)), term (V c (Pipeline.arrRef spec1 0)) (V c (Pipeline.arrRef spec1 1)) r q j := by
  intro n
  induction n with
  | zero => exact fun hn p q r hr => acc_first1 V c ⟨0, hn⟩ (Nat.zero_mod 5) p q r hr
  | succ n ih =>
    intro hn p q r hr
    by_cases h0 : (n + 1) % 5 = 0
    · exact acc_first1 V c ⟨n + 1, hn⟩ h0 p q r hr
    · have hk : n % 5 + 1 = (n + 1) % 5 := by omega
      have hr' : r.val = 800 * (n / 5) + p.val := by rw [hr]; omega
      rw [show accAt1 V c (n + 1) hn = _ from accAt1_next V c ⟨n + 1, hn⟩ h0]
      refine (part1 V c ⟨n + 1, hn⟩ p q r hr _).trans ?_
      refine (congrArg (· + _) ((ih (Nat.lt_of_succ_lt hn) p q r hr').trans (by rw [hk]))).trans ?_
      exact stretch_step (V c (Pipeline.arrRef spec1 0)) (V c (Pipeline.arrRef spec1 1)) r q ((n + 1) % 5)

/-- After point 5 i + 4 the output block holds the layer's result on rows 800 i … 800 i + 799. -/
theorem tile_done1 (c : Dev nD) (t : Fin cfg1.N) (h1 : t.val % 5 = 4) (p : Fin 800) (q : Fin 64) (r : Fin 16000) (hr : r.val = 800 * (t.val / 5) + p.val) :
    k0_pay3 (F := Ideal) (accAt1 V c t.val t.isLt) (bblk1 V c t) (ix2 p q) = layer (V c (Pipeline.arrRef spec1 0)) (V c (Pipeline.arrRef spec1 1)) (V c (Pipeline.arrRef spec1 2)) (ix2 r q) := by
  refine (payC_apply _ _ p q).trans ?_
  rw [acc_inv1 V c t.val t.isLt p q r hr, h1]
  exact layer_of_full (V c (Pipeline.arrRef spec1 0)) (V c (Pipeline.arrRef spec1 1)) r q (V c (Pipeline.arrRef spec1 2)) _ (bblk1_apply V c t (ix2 (0 : Fin 1) q) (ix2 (0 : Fin 1) q) rfl rfl)

/-- The output block of a point that closes a row tile is that block of the layer's result. -/
theorem flushed1_eq (c : Dev nD) (t : Fin cfg1.N) (hf : (cfg1.win 3).flush t = true) :
    (dat1 V c).flushed 3 t = ((cfg1.win 3).blk t).view.read (Elt Ideal) (layer (V c (Pipeline.arrRef spec1 0)) (V c (Pipeline.arrRef spec1 1)) (V c (Pipeline.arrRef spec1 2))) := by
  have h1 : t.val % 5 = 4 := (flush1_3 t).mp hf
  have hN : t.val < 100 := lt_of_lt_of_eq t.isLt (show cfg1.N = 100 from N_1)
  show (cfg1.win 3).cut (grid1.coords t) ((dat1 V c).after 3 t) = _
  rw [after1_3]
  funext y
  obtain ⟨p, q, rfl⟩ : ∃ (p : Fin 800) (q : Fin 64), y = ix2 p q := ⟨y 0, y 1, eq_ix2 y⟩
  have hr : 800 * (t.val / 5) + p.val < 16000 := by have := p.isLt; omega
  have hemb : ((cfg1.win 3).blk t).view.emb (ix2 p q) = ix2 (⟨800 * (t.val / 5) + p.val, hr⟩ : Fin 16000) q := by
    obtain ⟨-, -, -, -, -, -, e0, e1⟩ := idx_facts1 t
    funext a
    apply Fin.ext
    match a with
    | ⟨0, _⟩ => show win1_3.index t (0 : Fin 2) * 800 + 1 * p.val = 800 * (t.val / 5) + p.val; rw [e0]; omega
    | ⟨1, _⟩ => show win1_3.index t (1 : Fin 2) * 64 + 1 * q.val = q.val; rw [e1]; omega
  show k0_pay3 (F := Ideal) (accAt1 V c t.val t.isLt) (bblk1 V c t) (ix2 p q) = layer _ _ _ (((cfg1.win 3).blk t).view.emb (ix2 p q))
  rw [hemb]
  exact tile_done1 V c t h1 p q _ rfl

theorem mem_blk1 (t : Fin cfg1.N) (i : S16000x64.Idx) :
    i ∈ ((cfg1.win 3).blk t).view.set ↔ ∀ a : Fin 2, win1_3.index t a * S800x64.size a ≤ (i a).val ∧ (i a).val < win1_3.index t a * S800x64.size a + S800x64.size a := by
  show i ∈ ((View.whole main_v6).slice (win1_3.rect t)).set ↔ _
  rw [View.set_slice_whole, Rect.mem_set_unit]
  exact Iff.rfl

/-- The result array after the region is the layer's result of the graph, the projection and the bias row as the region
    found them: row r comes from the point that closes row tile r / 800. -/
theorem final1 (c : Dev nD) : (dat1 V c).arrAt 3 cfg1.N = layer (V c (Pipeline.arrRef spec1 0)) (V c (Pipeline.arrRef spec1 1)) (V c (Pipeline.arrRef spec1 2)) :=
  (dat1 V c).arrAt_eq_of_cover 3 (layer (V c (Pipeline.arrRef spec1 0)) (V c (Pipeline.arrRef spec1 1)) (V c (Pipeline.arrRef spec1 2))) (fun t hf => flushed1_eq V c t hf) fun i => by
    have hi0 : (i 0).val < 16000 := (i 0).isLt
    have hi1 : (i 1).val < 64 := (i 1).isLt
    have ht : 5 * ((i 0).val / 800) + 4 < cfg1.N := by rw [show cfg1.N = 100 from N_1]; omega
    refine ⟨⟨5 * ((i 0).val / 800) + 4, ht⟩, (flush1_3 _).mpr (by show (5 * ((i 0).val / 800) + 4) % 5 = 4; omega), ?_⟩
    rw [mem_blk1]
    obtain ⟨-, -, -, -, -, -, e0, e1⟩ := idx_facts1 ⟨5 * ((i 0).val / 800) + 4, ht⟩
    intro a
    match a with
    | ⟨0, _⟩ =>
      show win1_3.index ⟨5 * ((i 0).val / 800) + 4, ht⟩ (0 : Fin 2) * 800 ≤ (i 0).val ∧ (i 0).val < win1_3.index ⟨5 * ((i 0).val / 800) + 4, ht⟩ (0 : Fin 2) * 800 + 800
      rw [e0]
      show (5 * ((i 0).val / 800) + 4) / 5 * 800 ≤ (i 0).val ∧ (i 0).val < (5 * ((i 0).val / 800) + 4) / 5 * 800 + 800
      omega
    | ⟨1, _⟩ =>
      show win1_3.index ⟨5 * ((i 0).val / 800) + 4, ht⟩ (1 : Fin 2) * 64 ≤ (i 1).val ∧ (i 1).val < win1_3.index ⟨5 * ((i 0).val / 800) + 4, ht⟩ (1 : Fin 2) * 64 + 64
      rw [e1]
      omega

end Cert.KernelIdeal.Hand

end
-- ==== Proof.Value2.lean ====
import proofs.«137657_j13134009991420_1_alg».proof.Proof.Body2
import proofs.«137657_j13134009991420_1_alg».proof.Proof.Payloads
import proofs.«137657_j13134009991420_1_alg».proof.Proof.LayerSum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-- Where each block sits at point t = 5 i + k: the graph's at (i, k), the projection's at (k, 0), the bias row's and
    the result's at (0, 0) and (i, 0). -/
theorem idx_facts2 : ∀ t : Fin cfg2.N, win2_0.index t (0 : Fin 2) = t.val / 5 ∧ win2_0.index t (1 : Fin 2) = t.val % 5
    ∧ win2_1.index t (0 : Fin 2) = t.val % 5 ∧ win2_1.index t (1 : Fin 2) = 0
    ∧ win2_2.index t (0 : Fin 2) = 0 ∧ win2_2.index t (1 : Fin 2) = 0
    ∧ win2_3.index t (0 : Fin 2) = t.val / 5 ∧ win2_3.index t (1 : Fin 2) = 0 :=
  (by decide +kernel : ∀ t : Fin grid2.N, _)

theorem gblk2_apply (c : Dev nD) (t : Fin cfg2.N) (x : S800x3200.Idx) (k : S16000x16000.Idx)
    (hk0 : (k 0).val = 800 * (t.val / 5) + (x 0).val) (hk1 : (k 1).val = 3200 * (t.val % 5) + (x 1).val) :
    gblk2 V c t x = (V c (Pipeline.arrRef spec2 0) : S16000x16000.Idx → Elt Ideal .f32) k := by
  obtain ⟨e0, e1, -⟩ := idx_facts2 t
  unfold gblk2 iblk2
  rw [View.read_apply]
  show V c (Pipeline.arrRef spec2 0) _ = V c (Pipeline.arrRef spec2 0) _
  congr 1
  funext a
  apply Fin.ext
  match a with
  | ⟨0, _⟩ => show win2_0.index t (0 : Fin 2) * 800 + 1 * (x 0).val = (k 0).val; rw [e0, hk0]; omega
  | ⟨1, _⟩ => show win2_0.index t (1 : Fin 2) * 3200 + 1 * (x 1).val = (k 1).val; rw [e1, hk1]; omega

theorem hblk2_apply (c : Dev nD) (t : Fin cfg2.N) (x : S3200x64.Idx) (k : S16000x64.Idx)
    (hk0 : (k 0).val = 3200 * (t.val % 5) + (x 0).val) (hk1 : (k 1).val = (x 1).val) :
    hblk2 V c t x = (V c (Pipeline.arrRef spec2 1) : S16000x64.Idx → Elt Ideal .f32) k := by
  obtain ⟨-, -, e0, e1, -⟩ := idx_facts2 t
  unfold hblk2 iblk2
  rw [View.read_apply]
  show V c (Pipeline.arrRef spec2 1) _ = V c (Pipeline.arrRef spec2 1) _
  congr 1
  funext a
  apply Fin.ext
  match a with
  | ⟨0, _⟩ => show win2_1.index t (0 : Fin 2) * 3200 + 1 * (x 0).val = (k 0).val; rw [e0, hk0]; omega
  | ⟨1, _⟩ => show win2_1.index t (1 : Fin 2) * 64 + 1 * (x 1).val = (k 1).val; rw [e1, hk1]; omega

theorem bblk2_apply (c : Dev nD) (t : Fin cfg2.N) (x : S1x64.Idx) (k : S1x64.Idx)
    (hk0 : (k 0).val = (x 0).val) (hk1 : (k 1).val = (x 1).val) :
    bblk2 V c t x = (V c (Pipeline.arrRef spec2 2) : S1x64.Idx → Elt Ideal .f32) k := by
  obtain ⟨-, -, -, -, e0, e1, -⟩ := idx_facts2 t
  unfold bblk2 iblk2
  rw [View.read_apply]
  show V c (Pipeline.arrRef spec2 2) _ = V c (Pipeline.arrRef spec2 2) _
  congr 1
  funext a
  apply Fin.ext
  match a with
  | ⟨0, _⟩ => show win2_2.index t (0 : Fin 2) * 1 + 1 * (x 0).val = (k 0).val; rw [e0, hk0]; omega
  | ⟨1, _⟩ => show win2_2.index t (1 : Fin 2) * 64 + 1 * (x 1).val = (k 1).val; rw [e1, hk1]; omega

/-- The point's partial product at (p, q) is the (t % 5)-th stretch of row 800 (t / 5) + p's sum. -/
theorem part2 (c : Dev nD) (t : Fin cfg2.N) (p : Fin 800) (q : Fin 64) (r : Fin 16000) (hr : r.val = 800 * (t.val / 5) + p.val) (s : Vec Ideal S800x64 .f32) :
    k0_pay2 (F := Ideal) (gblk2 V c t) (hblk2 V c t) s (ix2 p q)
      = s (ix2 p q) + ∑ j ∈ Finset.range 3200, term (V c (Pipeline.arrRef spec2 0)) (V c (Pipeline.arrRef spec2 1)) r q (3200 * (t.val % 5) + j) :=
  (payB_apply _ _ _ _).trans (congrArg (s (ix2 p q) + ·) (tile_stretch (V c (Pipeline.arrRef spec2 0)) (V c (Pipeline.arrRef spec2 1)) r q (gblk2 V c t) (hblk2 V c t) p (t.val % 5) (Nat.mod_lt _ (by decide))
    (fun j hj => gblk2_apply V c t (ix2 p j) (ix2 r ⟨_, hj⟩) hr rfl)
    (fun j hj => hblk2_apply V c t (ix2 j q) (ix2 ⟨_, hj⟩ q) rfl rfl)))

theorem acc_first2 (c : Dev nD) (t : Fin cfg2.N) (h0 : t.val % 5 = 0) (p : Fin 800) (q : Fin 64) (r : Fin 16000) (hr : r.val = 800 * (t.val / 5) + p.val) :
    accAt2 V c t.val t.isLt (ix2 p q) = ∑ j ∈ Finset.range (3200 * (t.val % 5 + 1)), term (V c (Pipeline.arrRef spec2 0)) (V c (Pipeline.arrRef spec2 1)) r q j := by
  rw [accAt2_first V c t h0]
  refine (part2 V c t p q r hr _).trans ?_
  rw [payA_apply, h0]
  exact stretch_first (V c (Pipeline.arrRef spec2 0)) (V c (Pipeline.arrRef spec2 1)) r q

/-- The accumulator after point t = 5 i + k holds, at (p, q), the first 3200 (k + 1) terms of row 800 i + p's sum. -/
theorem acc_inv2 (c : Dev nD) : ∀ (n : ℕ) (hn : n < cfg2.N) (p : Fin 800) (q : Fin 64) (r : Fin 16000), r.val = 800 * (n / 5) + p.val →
    accAt2 V c n hn (ix2 p q) = ∑ j ∈ Finset.range (3200 * (n % 5 + 1)), term (V c (Pipeline.arrRef spec2 0)) (V c (Pipeline.arrRef spec2 1)) r q j := by
  intro n
  induction n with
  | zero => exact fun hn p q r hr => acc_first2 V c ⟨0, hn⟩ (Nat.zero_mod 5) p q r hr
  | succ n ih =>
    intro hn p q r hr
    by_cases h0 : (n + 1) % 5 = 0
    · exact acc_first2 V c ⟨n + 1, hn⟩ h0 p q r hr
    · have hk : n % 5 + 1 = (n + 1) % 5 := by omega
      have hr' : r.val = 800 * (n / 5) + p.val := by rw [hr]; omega
      rw [show accAt2 V c (n + 1) hn = _ from accAt2_next V c ⟨n + 1, hn⟩ h0]
      refine (part2 V c ⟨n + 1, hn⟩ p q r hr _).trans ?_
      refine (congrArg (· + _) ((ih (Nat.lt_of_succ_lt hn) p q r hr').trans (by rw [hk]))).trans ?_
      exact stretch_step (V c (Pipeline.arrRef spec2 0)) (V c (Pipeline.arrRef spec2 1)) r q ((n + 1) % 5)

/-- After point 5 i + 4 the output block holds the layer's result on rows 800 i … 800 i + 799. -/
theorem tile_done2 (c : Dev nD) (t : Fin cfg2.N) (h1 : t.val % 5 = 4) (p : Fin 800) (q : Fin 64) (r : Fin 16000) (hr : r.val = 800 * (t.val / 5) + p.val) :
    k0_pay3 (F := Ideal) (accAt2 V c t.val t.isLt) (bblk2 V c t) (ix2 p q) = layer (V c (Pipeline.arrRef spec2 0)) (V c (Pipeline.arrRef spec2 1)) (V c (Pipeline.arrRef spec2 2)) (ix2 r q) := by
  refine (payC_apply _ _ p q).trans ?_
  rw [acc_inv2 V c t.val t.isLt p q r hr, h1]
  exact layer_of_full (V c (Pipeline.arrRef spec2 0)) (V c (Pipeline.arrRef spec2 1)) r q (V c (Pipeline.arrRef spec2 2)) _ (bblk2_apply V c t (ix2 (0 : Fin 1) q) (ix2 (0 : Fin 1) q) rfl rfl)

/-- The output block of a point that closes a row tile is that block of the layer's result. -/
theorem flushed2_eq (c : Dev nD) (t : Fin cfg2.N) (hf : (cfg2.win 3).flush t = true) :
    (dat2 V c).flushed 3 t = ((cfg2.win 3).blk t).view.read (Elt Ideal) (layer (V c (Pipeline.arrRef spec2 0)) (V c (Pipeline.arrRef spec2 1)) (V c (Pipeline.arrRef spec2 2))) := by
  have h1 : t.val % 5 = 4 := (flush2_3 t).mp hf
  have hN : t.val < 100 := lt_of_lt_of_eq t.isLt (show cfg2.N = 100 from N_2)
  show (cfg2.win 3).cut (grid2.coords t) ((dat2 V c).after 3 t) = _
  rw [after2_3]
  funext y
  obtain ⟨p, q, rfl⟩ : ∃ (p : Fin 800) (q : Fin 64), y = ix2 p q := ⟨y 0, y 1, eq_ix2 y⟩
  have hr : 800 * (t.val / 5) + p.val < 16000 := by have := p.isLt; omega
  have hemb : ((cfg2.win 3).blk t).view.emb (ix2 p q) = ix2 (⟨800 * (t.val / 5) + p.val, hr⟩ : Fin 16000) q := by
    obtain ⟨-, -, -, -, -, -, e0, e1⟩ := idx_facts2 t
    funext a
    apply Fin.ext
    match a with
    | ⟨0, _⟩ => show win2_3.index t (0 : Fin 2) * 800 + 1 * p.val = 800 * (t.val / 5) + p.val; rw [e0]; omega
    | ⟨1, _⟩ => show win2_3.index t (1 : Fin 2) * 64 + 1 * q.val = q.val; rw [e1]; omega
  show k0_pay3 (F := Ideal) (accAt2 V c t.val t.isLt) (bblk2 V c t) (ix2 p q) = layer _ _ _ (((cfg2.win 3).blk t).view.emb (ix2 p q))
  rw [hemb]
  exact tile_done2 V c t h1 p q _ rfl

theorem mem_blk2 (t : Fin cfg2.N) (i : S16000x64.Idx) :
    i ∈ ((cfg2.win 3).blk t).view.set ↔ ∀ a : Fin 2, win2_3.index t a * S800x64.size a ≤ (i a).val ∧ (i a).val < win2_3.index t a * S800x64.size a + S800x64.size a := by
  show i ∈ ((View.whole main_v9).slice (win2_3.rect t)).set ↔ _
  rw [View.set_slice_whole, Rect.mem_set_unit]
  exact Iff.rfl

/-- The result array after the region is the layer's result of the graph, the projection and the bias row as the region
    found them: row r comes from the point that closes row tile r / 800. -/
theorem final2 (c : Dev nD) : (dat2 V c).arrAt 3 cfg2.N = layer (V c (Pipeline.arrRef spec2 0)) (V c (Pipeline.arrRef spec2 1)) (V c (Pipeline.arrRef spec2 2)) :=
  (dat2 V c).arrAt_eq_of_cover 3 (layer (V c (Pipeline.arrRef spec2 0)) (V c (Pipeline.arrRef spec2 1)) (V c (Pipeline.arrRef spec2 2))) (fun t hf => flushed2_eq V c t hf) fun i => by
    have hi0 : (i 0).val < 16000 := (i 0).isLt
    have hi1 : (i 1).val < 64 := (i 1).isLt
    have ht : 5 * ((i 0).val / 800) + 4 < cfg2.N := by rw [show cfg2.N = 100 from N_2]; omega
    refine ⟨⟨5 * ((i 0).val / 800) + 4, ht⟩, (flush2_3 _).mpr (by show (5 * ((i 0).val / 800) + 4) % 5 = 4; omega), ?_⟩
    rw [mem_blk2]
    obtain ⟨-, -, -, -, -, -, e0, e1⟩ := idx_facts2 ⟨5 * ((i 0).val / 800) + 4, ht⟩
    intro a
    match a with
    | ⟨0, _⟩ =>
      show win2_3.index ⟨5 * ((i 0).val / 800) + 4, ht⟩ (0 : Fin 2) * 800 ≤ (i 0).val ∧ (i 0).val < win2_3.index ⟨5 * ((i 0).val / 800) + 4, ht⟩ (0 : Fin 2) * 800 + 800
      rw [e0]
      show (5 * ((i 0).val / 800) + 4) / 5 * 800 ≤ (i 0).val ∧ (i 0).val < (5 * ((i 0).val / 800) + 4) / 5 * 800 + 800
      omega
    | ⟨1, _⟩ =>
      show win2_3.index ⟨5 * ((i 0).val / 800) + 4, ht⟩ (1 : Fin 2) * 64 ≤ (i 1).val ∧ (i 1).val < win2_3.index ⟨5 * ((i 0).val / 800) + 4, ht⟩ (1 : Fin 2) * 64 + 64
      rw [e1]
      omega

end Cert.KernelIdeal.Hand

end
-- ==== Proof.RefLayer.lean ====
import proofs.«137657_j13134009991420_1_alg».proof.Proof.LayerSum
import proofs.«137657_j13134009991420_1_alg».proof.Proof.LibPlainDot
import proofs.«137657_j13134009991420_1_alg».proof.ReferenceIdeal
import proofs.«137657_j13134009991420_1_alg».proof.Proof.Gen.ReferenceIdeal
import proofs.«137657_j13134009991420_1_alg».proof.Proof.Gen.KernelIdeal

noncomputable section

namespace Cert.KernelIdeal.Hand

open Idealize.ShloMosaic Idealize.ShloMosaic.ValueIdx

abbrev refLayer (G : Cert.ReferenceIdeal.S16000x16000.Idx → EReal) (H : Cert.ReferenceIdeal.S16000x64.Idx → EReal) (b : Cert.ReferenceIdeal.S64.Idx → EReal) :
    Cert.ReferenceIdeal.S16000x64.Idx → EReal :=
  maximumf (F := Ideal) (φ := .f32)
    (addf (F := Ideal) (φ := .f32) (Host.dotGeneral (F := Ideal) (φ₁ := .f32) (φ₂ := .f32) Cert.ReferenceIdeal.dot_S16000x16000_S16000x64_S16000x64_1_0_0_1_n_n none G H)
      (broadcastInDim Cert.ReferenceIdeal.S16000x64 ![0, 1] Cert.ReferenceIdeal.Facts₀.bcast_S1x64_S16000x64_0_1
        (broadcastInDim Cert.ReferenceIdeal.S1x64 ![1] Cert.ReferenceIdeal.Facts₀.bcast_S64_S1x64_1 b)))
    (broadcastInDim Cert.ReferenceIdeal.S16000x64 ![] Cert.ReferenceIdeal.Facts₀.bcast_S_S16000x64 (constant (F := Ideal) Cert.ReferenceIdeal.S_ .f32 0x00000000#32))

theorem layer_eq_ref (G : Cert.KernelIdeal.S16000x16000.Idx → EReal) (H : Cert.KernelIdeal.S16000x64.Idx → EReal) (b : Cert.KernelIdeal.S64.Idx → EReal) :
    layer G H (shapeCast Cert.KernelIdeal.S1x64 b Cert.KernelIdeal.Facts₀.shapeCasts_S64_S1x64) = refLayer G H b := by
  funext i
  obtain ⟨r, q, rfl⟩ : ∃ (r : Fin 16000) (q : Fin 64), i = ix2 r q := ⟨i 0, i 1, eq_ix2 i⟩
  unfold refLayer
  rw [maximumf_apply, addf_apply]
  rw [Cert.LibPlainDot.rowBroadcastInDim_apply (R := 16000) (C := 64) b _ _ r q]
  rw [broadcastInDim_apply ![] _ (constant (F := Ideal) Cert.ReferenceIdeal.S_ .f32 0x00000000#32) (ix2 r q) ix0 (fun a => a.elim0), constant_apply, Ideal.ofBits_zero_f32]
  show max ((∑ j : Fin 16000, G (ix2 r j) * H (ix2 j q)) + shapeCast Cert.KernelIdeal.S1x64 b Cert.KernelIdeal.Facts₀.shapeCasts_S64_S1x64 (ix2 (0 : Fin 1) q)) 0 = _
  rw [shapeCast_apply b Cert.KernelIdeal.Facts₀.shapeCasts_S64_S1x64 (ix2 (0 : Fin 1) q) (ix1 q) (by
    rw [Shape.rowMajor_val_one, Shape.rowMajor_val_two]
    show q.val = (0 : Nat) * 64 + q.val
    omega)]
  have hd := Cert.LibPlainDot.dotGeneral_plain (M := 16000) (K := 16000) (N := 64) (φ₁ := .f32) (φ₂ := .f32) none .single G H (ix2 r q)
  exact congrArg (fun z => max (z + b (ix1 q)) 0) hd.symm

end Cert.KernelIdeal.Hand

end
-- ==== Proof.Bridge.lean ====
import proofs.«137657_j13134009991420_1_alg».proof.Proof.Whole
import proofs.«137657_j13134009991420_1_alg».proof.Proof.Value0
import proofs.«137657_j13134009991420_1_alg».proof.Proof.Value1
import proofs.«137657_j13134009991420_1_alg».proof.Proof.Value2
import proofs.«137657_j13134009991420_1_alg».proof.Proof.RefLayer
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.StableHlo

variable (m : (ℓ : Loc nD τ sig) → Buf (Elt Ideal) ℓ)

theorem bnd1_same (c : Dev nD) (x : Ref sig .tc) (hx : x ∉ hostOps0_W) : bnd1 m c (Proc.devRef .tc x) = m ((c : Thread nD τ).loc x) :=
  StableHlo.after_of_writes_sub hostOps0 _ hostOps0_writes hx
theorem bnd3_same (c : Dev nD) (x : Ref sig .tc) (hx : x ∉ hostOps1_W) : bnd3 m c (Proc.devRef .tc x) = bnd2 m c (Proc.devRef .tc x) :=
  StableHlo.after_of_writes_sub hostOps1 _ hostOps1_writes hx
theorem bnd5_same (c : Dev nD) (x : Ref sig .tc) (hx : x ∉ hostOps2_W) : bnd5 m c (Proc.devRef .tc x) = bnd4 m c (Proc.devRef .tc x) :=
  StableHlo.after_of_writes_sub hostOps2 _ hostOps2_writes hx

theorem bnd2_same (c : Dev nD) (x : Ref sig .tc) (hx : x ≠ main_v3) : bnd2 m c (Proc.devRef .tc x) = bnd1 m c (Proc.devRef .tc x) := by
  by_cases h : ∃ w, Pipeline.arrRef spec0 w = x
  · obtain ⟨w, rfl⟩ := h
    have hw : (cfg0.win w).isOut = false := by
      match w with
      | ⟨0, _⟩ => rfl
      | ⟨1, _⟩ => rfl
      | ⟨2, _⟩ => rfl
      | ⟨3, _⟩ => exact absurd (rfl : Pipeline.arrRef spec0 ⟨3, _⟩ = main_v3) hx
    exact (bnd2_arr m c w).trans (((dat0 (ent0 m) c).arrAt_in w hw _).trans (A_eq0 (ent0 m) c w))
  · exact bnd2_of_ne m c x fun w e => h ⟨w, e⟩

theorem bnd4_same (c : Dev nD) (x : Ref sig .tc) (hx : x ≠ main_v6) : bnd4 m c (Proc.devRef .tc x) = bnd3 m c (Proc.devRef .tc x) := by
  by_cases h : ∃ w, Pipeline.arrRef spec1 w = x
  · obtain ⟨w, rfl⟩ := h
    have hw : (cfg1.win w).isOut = false := by
      match w with
      | ⟨0, _⟩ => rfl
      | ⟨1, _⟩ => rfl
      | ⟨2, _⟩ => rfl
      | ⟨3, _⟩ => exact absurd (rfl : Pipeline.arrRef spec1 ⟨3, _⟩ = main_v6) hx
    exact (bnd4_arr m c w).trans (((dat1 (ent1 m) c).arrAt_in w hw _).trans (A_eq1 (ent1 m) c w))
  · exact bnd4_of_ne m c x fun w e => h ⟨w, e⟩

theorem bnd6_same (c : Dev nD) (x : Ref sig .tc) (hx : x ≠ main_v9) : bnd6 m c (Proc.devRef .tc x) = bnd5 m c (Proc.devRef .tc x) := by
  by_cases h : ∃ w, Pipeline.arrRef spec2 w = x
  · obtain ⟨w, rfl⟩ := h
    have hw : (cfg2.win w).isOut = false := by
      match w with
      | ⟨0, _⟩ => rfl
      | ⟨1, _⟩ => rfl
      | ⟨2, _⟩ => rfl
      | ⟨3, _⟩ => exact absurd (rfl : Pipeline.arrRef spec2 ⟨3, _⟩ = main_v9) hx
    exact (bnd6_arr m c w).trans (((dat2 (ent2 m) c).arrAt_in w hw _).trans (A_eq2 (ent2 m) c w))
  · exact bnd6_of_ne m c x fun w e => h ⟨w, e⟩

abbrev dotW (e : S16000x64.Idx → EReal) (W : S64x64.Idx → EReal) : S16000x64.Idx → EReal :=
  Host.dotGeneral (F := Ideal) (φ₁ := .f32) (φ₂ := .f32) dot_S16000x64_S64x64_S16000x64_1_0_0_1_n_n none e W

def kA (c : Dev nD) : S16000x64.Idx → EReal :=
  concatenate S16000x64 0 [⟨S8000x64, (m ((c : Thread nD τ).loc main_arg3))⟩, ⟨S8000x64, (m ((c : Thread nD τ).loc main_arg4))⟩] Facts₀.concatenates_S8000x64_S8000x64_S16000x64_d0

def kb (c : Dev nD) : S1x64.Idx → EReal := shapeCast S1x64 (m ((c : Thread nD τ).loc main_arg6)) Facts₀.shapeCasts_S64_S1x64

def kL1 (c : Dev nD) : S16000x64.Idx → EReal := layer (m ((c : Thread nD τ).loc main_arg2)) (dotW (kA m c) (m ((c : Thread nD τ).loc main_arg5))) (kb m c)
def kL2 (c : Dev nD) : S16000x64.Idx → EReal := layer (m ((c : Thread nD τ).loc main_arg2)) (dotW (kL1 m c) (m ((c : Thread nD τ).loc main_arg5))) (kb m c)
def kL3 (c : Dev nD) : S16000x64.Idx → EReal := layer (m ((c : Thread nD τ).loc main_arg2)) (dotW (kL2 m c) (m ((c : Thread nD τ).loc main_arg5))) (kb m c)

theorem bnd1_v0 (c : Dev nD) : bnd1 m c (Proc.devRef .tc main_v0) = kA m c := by
  show StableHlo.after hostOps0 (bnd0 m c) (Proc.devRef .tc main_v0) = _
  after_results
  rfl
theorem bnd1_v1 (c : Dev nD) : bnd1 m c (Proc.devRef .tc main_v1) = kb m c := by
  show StableHlo.after hostOps0 (bnd0 m c) (Proc.devRef .tc main_v1) = _
  after_results
  rfl
theorem bnd1_v2 (c : Dev nD) : bnd1 m c (Proc.devRef .tc main_v2) = dotW (kA m c) (m ((c : Thread nD τ).loc main_arg5)) := by
  show StableHlo.after hostOps0 (bnd0 m c) (Proc.devRef .tc main_v2) = _
  after_results
  rfl

theorem bnd2_v3 (c : Dev nD) : bnd2 m c (Proc.devRef .tc main_v3) = kL1 m c := by
  refine (bnd2_arr m c 3).trans ((final0 (ent0 m) c).trans ?_)
  have e0 : (ent0 m c (Pipeline.arrRef spec0 0) : S16000x16000.Idx → EReal) = (m ((c : Thread nD τ).loc main_arg2)) := bnd1_same m c main_arg2 (by decide)
  have e1 : (ent0 m c (Pipeline.arrRef spec0 1) : S16000x64.Idx → EReal) = dotW (kA m c) (m ((c : Thread nD τ).loc main_arg5)) := bnd1_v2 m c
  have e2 : (ent0 m c (Pipeline.arrRef spec0 2) : S1x64.Idx → EReal) = kb m c := bnd1_v1 m c
  unfold kL1
  exact congr (congr (congrArg layer e0) e1) e2

theorem bnd3_v4 (c : Dev nD) : bnd3 m c (Proc.devRef .tc main_v4) = addf (F := Ideal) (φ := .f32) (kA m c) (kL1 m c) := by
  show StableHlo.after hostOps1 (bnd2 m c) (Proc.devRef .tc main_v4) = _
  after_results
  rw [bnd2_v3, bnd2_same m c main_v0 (by decide), bnd1_v0]
theorem bnd3_v5 (c : Dev nD) : bnd3 m c (Proc.devRef .tc main_v5) = dotW (kL1 m c) (m ((c : Thread nD τ).loc main_arg5)) := by
  show StableHlo.after hostOps1 (bnd2 m c) (Proc.devRef .tc main_v5) = _
  after_results
  rw [bnd2_v3, (bnd2_same m c main_arg5 (by decide)).trans (bnd1_same m c main_arg5 (by decide))]

theorem bnd4_v6 (c : Dev nD) : bnd4 m c (Proc.devRef .tc main_v6) = kL2 m c := by
  refine (bnd4_arr m c 3).trans ((final1 (ent1 m) c).trans ?_)
  have e0 : (ent1 m c (Pipeline.arrRef spec1 0) : S16000x16000.Idx → EReal) = (m ((c : Thread nD τ).loc main_arg2)) := (bnd3_same m c main_arg2 (by decide)).trans ((bnd2_same m c main_arg2 (by decide)).trans (bnd1_same m c main_arg2 (by decide)))
  have e1 : (ent1 m c (Pipeline.arrRef spec1 1) : S16000x64.Idx → EReal) = dotW (kL1 m c) (m ((c : Thread nD τ).loc main_arg5)) := bnd3_v5 m c
  have e2 : (ent1 m c (Pipeline.arrRef spec1 2) : S1x64.Idx → EReal) = kb m c := (bnd3_same m c main_v1 (by decide)).trans ((bnd2_same m c main_v1 (by decide)).trans (bnd1_v1 m c))
  unfold kL2
  exact congr (congr (congrArg layer e0) e1) e2

theorem bnd5_v7 (c : Dev nD) : bnd5 m c (Proc.devRef .tc main_v7) = addf (F := Ideal) (φ := .f32) (addf (F := Ideal) (φ := .f32) (kA m c) (kL1 m c)) (kL2 m c) := by
  show StableHlo.after hostOps2 (bnd4 m c) (Proc.devRef .tc main_v7) = _
  after_results
  rw [bnd4_v6, (bnd4_same m c main_v4 (by decide)).trans (bnd3_v4 m c)]
theorem bnd5_v8 (c : Dev nD) : bnd5 m c (Proc.devRef .tc main_v8) = dotW (kL2 m c) (m ((c : Thread nD τ).loc main_arg5)) := by
  show StableHlo.after hostOps2 (bnd4 m c) (Proc.devRef .tc main_v8) = _
  after_results
  rw [bnd4_v6, (bnd4_same m c main_arg5 (by decide)).trans ((bnd3_same m c main_arg5 (by decide)).trans ((bnd2_same m c main_arg5 (by decide)).trans (bnd1_same m c main_arg5 (by decide))))]

theorem bnd6_v9 (c : Dev nD) : bnd6 m c (Proc.devRef .tc main_v9) = kL3 m c := by
  refine (bnd6_arr m c 3).trans ((final2 (ent2 m) c).trans ?_)
  have e0 : (ent2 m c (Pipeline.arrRef spec2 0) : S16000x16000.Idx → EReal) = (m ((c : Thread nD τ).loc main_arg2)) := (bnd5_same m c main_arg2 (by decide)).trans ((bnd4_same m c main_arg2 (by decide)).trans ((bnd3_same m c main_arg2 (by decide)).trans ((bnd2_same m c main_arg2 (by decide)).trans (bnd1_same m c main_arg2 (by decide)))))
  have e1 : (ent2 m c (Pipeline.arrRef spec2 1) : S16000x64.Idx → EReal) = dotW (kL2 m c) (m ((c : Thread nD τ).loc main_arg5)) := bnd5_v8 m c
  have e2 : (ent2 m c (Pipeline.arrRef spec2 2) : S1x64.Idx → EReal) = kb m c := (bnd5_same m c main_v1 (by decide)).trans ((bnd4_same m c main_v1 (by decide)).trans ((bnd3_same m c main_v1 (by decide)).trans ((bnd2_same m c main_v1 (by decide)).trans (bnd1_v1 m c))))
  unfold kL3
  exact congr (congr (congrArg layer e0) e1) e2

abbrev wrapIdx (a : (⟨S4096, .i32⟩ : BufTy).Contents (Elt Ideal)) : (⟨S4096x1, .i32⟩ : BufTy).Contents (Elt Ideal) :=
  broadcastInDim S4096x1 ![0] Facts₀.bcast_S4096_S4096x1_0
    (select (cmpi .slt a (broadcastInDim S4096 ![] Facts₀.bcast_S_S4096 (constantI S_ 32 0#32)))
      (addi a (broadcastInDim S4096 ![] Facts₀.bcast_S_S4096 (constantI S_ 32 8000#32))) a)

abbrev meanOf (S : S16000x64.Idx → EReal) : S16000x64.Idx → EReal :=
  Host.divf (F := Ideal) (φ := .f32) S (broadcastInDim S16000x64 ![] Facts₀.bcast_S_S16000x64 (constant (F := Ideal) S_ .f32 0x40800000#32))

def tail (S : S16000x64.Idx → EReal) (u it : (⟨S4096, .i32⟩ : BufTy).Contents (Elt Ideal)) : (⟨S4096, .f32⟩ : BufTy).Contents (Elt Ideal) :=
  Host.reduceAdd (F := Ideal)
    (mulf (F := Ideal) (φ := .f32)
      (Host.gather gather_S8000x64_S4096x1_S4096x64_1_0_n_n_0_1_164 (extractStridedSlice S8000x64 ![0, 0] (meanOf S) Facts₀.slices_S16000x64_S8000x64_0_0) (wrapIdx u))
      (Host.gather gather_S8000x64_S4096x1_S4096x64_1_0_n_n_0_1_164 (extractStridedSlice S8000x64 ![8000, 0] (meanOf S) Facts₀.slices_S16000x64_S8000x64_8000_0) (wrapIdx it)))
    (constant (F := Ideal) S_ .f32 0x00000000#32) Facts₀.reducesTo_S4096x64_S4096_d1 Facts₀.h_S_

theorem bnd7_v30 (c : Dev nD) : bnd7 m c (Proc.devRef .tc main_v30)
    = tail (addf (F := Ideal) (φ := .f32) (addf (F := Ideal) (φ := .f32) (addf (F := Ideal) (φ := .f32) (kA m c) (kL1 m c)) (kL2 m c)) (kL3 m c)) (m ((c : Thread nD τ).loc main_arg0)) (m ((c : Thread nD τ).loc main_arg1)) := by
  have a0 : bnd6 m c (Proc.devRef .tc main_arg0) = (m ((c : Thread nD τ).loc main_arg0)) :=
    (bnd6_same m c main_arg0 (by decide)).trans ((bnd5_same m c main_arg0 (by decide)).trans ((bnd4_same m c main_arg0 (by decide)).trans ((bnd3_same m c main_arg0 (by decide)).trans ((bnd2_same m c main_arg0 (by decide)).trans (bnd1_same m c main_arg0 (by decide))))))
  have a1 : bnd6 m c (Proc.devRef .tc main_arg1) = (m ((c : Thread nD τ).loc main_arg1)) :=
    (bnd6_same m c main_arg1 (by decide)).trans ((bnd5_same m c main_arg1 (by decide)).trans ((bnd4_same m c main_arg1 (by decide)).trans ((bnd3_same m c main_arg1 (by decide)).trans ((bnd2_same m c main_arg1 (by decide)).trans (bnd1_same m c main_arg1 (by decide))))))
  have a7 : bnd6 m c (Proc.devRef .tc main_v7) = _ := (bnd6_same m c main_v7 (by decide)).trans (bnd5_v7 m c)
  show StableHlo.after hostOps3 (bnd6 m c) (Proc.devRef .tc main_v30) = _
  after_results_simp
  rw [bnd6_v9, a7, a0, a1]
  rfl

end Cert.KernelIdeal.Hand

end
-- ==== Proof.Final.lean ====
import proofs.«137657_j13134009991420_1_alg».proof.Proof.Bridge
import proofs.«137657_j13134009991420_1_alg».proof.Proof.Gen.ReferenceIdeal.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The input embedding plus three layers, each applied to the one before times the weight. -/
def emb3 (LY : (S16000x64.Idx → EReal) → (S16000x64.Idx → EReal)) (A : S16000x64.Idx → EReal) (W : S64x64.Idx → EReal) : S16000x64.Idx → EReal :=
  addf (F := Ideal) (φ := .f32) (addf (F := Ideal) (φ := .f32) (addf (F := Ideal) (φ := .f32) A (LY (dotW A W))) (LY (dotW (LY (dotW A W)) W)))
    (LY (dotW (LY (dotW (LY (dotW A W)) W)) W))

/-- The function of the seven arguments both programs compute. -/
def model (u it : (⟨S4096, .i32⟩ : BufTy).Contents (Elt Ideal)) (G : S16000x16000.Idx → EReal) (ue ie : S8000x64.Idx → EReal)
    (W : S64x64.Idx → EReal) (b : S64.Idx → EReal) : (⟨S4096, .f32⟩ : BufTy).Contents (Elt Ideal) :=
  tail (emb3 (fun h => refLayer G h b) (concatenate S16000x64 0 [⟨S8000x64, ue⟩, ⟨S8000x64, ie⟩] Facts₀.concatenates_S8000x64_S8000x64_S16000x64_d0) W) u it

theorem kernel_model (c : Dev nD) : bnd7 m c (Proc.devRef .tc main_v30) = model (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [bnd7_v30]
  have hL : (fun h => layer (m ((c : Thread nD τ).loc main_arg2)) h (kb m c)) = fun h => refLayer (m ((c : Thread nD τ).loc main_arg2)) h (m ((c : Thread nD τ).loc main_arg6)) :=
    funext fun h => layer_eq_ref _ h _
  have hS : addf (F := Ideal) (φ := .f32) (addf (F := Ideal) (φ := .f32) (addf (F := Ideal) (φ := .f32) (kA m c) (kL1 m c)) (kL2 m c)) (kL3 m c)
      = emb3 (fun h => layer (m ((c : Thread nD τ).loc main_arg2)) h (kb m c)) (kA m c) (m ((c : Thread nD τ).loc main_arg5)) := rfl
  rw [hS, hL]
  rfl

theorem ref_model (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v41 (F := Ideal) m' c = model (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) := by
  unfold Cert.ReferenceIdeal.Value.res_main_v41 model emb3 tail
  rfl

theorem run_value : θ_run defs (onTc (τ := τ) (main (F := Ideal))) ⟨m, fun _ => 0, ρ⟩ (fun r => ∀ c : Dev nD,
      r.2.mem ((c.tc : Thread nD τ).loc main_v30) = model (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ∧ Kept m r.2.mem c) :=
  (θ_run defs _ _).mono (fun r h c => ⟨(h c _ (mem_uc main_v30 (by decide))).trans (kernel_model m c), kept m c r.2.mem (h c)⟩) (run_main m ρ)

end Cert.KernelIdeal.Hand

end
-- ==== Proof.lean ====
/- Three layers  e ↦ relu(G · (e · W) + b)  of a graph embedding, their mean with the input embedding, two row gathers and a
   row-wise dot product: the tiled kernel's contraction sums, cut into five stretches a row tile, are the reference's whole sums. -/
import proofs.«137657_j13134009991420_1_alg».proof.Defs
import proofs.«137657_j13134009991420_1_alg».proof.Proof.Gen.Kernel
import proofs.«137657_j13134009991420_1_alg».proof.Proof.Gen.KernelIdeal
import proofs.«137657_j13134009991420_1_alg».proof.Proof.Gen.ReferenceIdeal
import proofs.«137657_j13134009991420_1_alg».proof.Proof.Gen.Pre_finite_inputs
import proofs.«137657_j13134009991420_1_alg».proof.Proof.Whole
import proofs.«137657_j13134009991420_1_alg».proof.Proof.Bits.Whole
import proofs.«137657_j13134009991420_1_alg».proof.Proof.Gen.ReferenceIdeal.Run
import proofs.«137657_j13134009991420_1_alg».proof.Proof.Final
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

theorem algebraic : Cert.algebraic_KernelIdeal_ReferenceIdeal := by
  intro m ρ m' ρ' _ hagree
  refine ⟨fun c => Cert.KernelIdeal.Hand.model (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.KernelIdeal.Hand.ref_model m' c]
  obtain ⟨e0, e1, e2, e3, e4, e5, e6⟩ := hagree c
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
